-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S256x512 : Shape := ⟨2, ![256, 512]⟩
abbrev S2048x512 : Shape := ⟨2, ![2048, 512]⟩
abbrev S1x2048 : Shape := ⟨2, ![1, 2048]⟩
abbrev S256 : Shape := ⟨1, ![256]⟩
abbrev S256x1 : Shape := ⟨2, ![256, 1]⟩
abbrev S512x2048 : Shape := ⟨2, ![512, 2048]⟩
abbrev S256x2048 : Shape := ⟨2, ![256, 2048]⟩
abbrev S2048 : Shape := ⟨1, ![2048]⟩
abbrev S512x4096 : Shape := ⟨2, ![512, 4096]⟩
abbrev S256x4096 : Shape := ⟨2, ![256, 4096]⟩

abbrev nBuf : Space → Nat
  | .hbm => 17
  | .vmem => 34
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S256x512, .f32⟩
  | .local _ .vmem, ⟨23, _⟩ => ⟨S256x512, .f32⟩
  | .local _ .vmem, ⟨24, _⟩ => ⟨S4096x512, .bf16⟩
  | .local _ .vmem, ⟨25, _⟩ => ⟨S4096x512, .bf16⟩
  | .local _ .vmem, ⟨26, _⟩ => ⟨S1x4096, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .vmem, ⟨30, _⟩ => ⟨S1x4096, .f32⟩
  | .local _ .vmem, ⟨31, _⟩ => ⟨S1x4096, .f32⟩
  | .local _ .vmem, ⟨32, _⟩ => ⟨S256x512, .f32⟩
  | .local _ .vmem, ⟨33, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v102 : BitVec 1 := Scalar.cmpi .eq arg1 c15_i32
  let v103 : BitVec 32 := Scalar.extui v102
  let c0_i32_41 : BitVec 32 := 0#32
  let v104 : BitVec 1 := Scalar.cmpi .ne v103 c0_i32_41
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  reducesTo_S4096x512_S4096_d1 : S4096x512.ReducesTo [1] S4096
  h_S_ : 0 < S_.numel
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S256x512_S256 : S256x512.Reduces [1] S256
  shapeCasts_S256_S256x1 : S256.ShapeCasts S256x1
  transposes_S2048x512_p1_0_S512x2048 : S2048x512.Transposes [1, 0] S512x2048
  broadcasts_S256x1_S256x2048 : S256x1.Broadcasts S256x2048
  broadcasts_S1x2048_S256x2048 : S1x2048.Broadcasts S256x2048
  reduces_S256x2048_S2048 : S256x2048.Reduces [0] S2048
  shapeCasts_S2048_S1x2048 : S2048.ShapeCasts S1x2048
  iota_S256x1_d0_w32 : S256x1.Iotas .tc 32 [0]
  iota_S1x2048_d1_w32 : S1x2048.Iotas .tc 32 [1]
  natLt_1_32 : 1 < 32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S4096x512_p1_0_S512x4096 : S4096x512.Transposes [1, 0] S512x4096
  broadcasts_S256x1_S256x4096 : S256x1.Broadcasts S256x4096
  broadcasts_S1x4096_S256x4096 : S1x4096.Broadcasts S256x4096
  iota_S1x4096_d1_w32 : S1x4096.Iotas .tc 32 [1]
  reduces_S256x4096_S256 : S256x4096.Reduces [1] S256
  dot_S256x512_S512x2048_S256x2048_1_0_0_1_n_n_wf : DotDims.WF S256x512 S512x2048 S256x2048 [1] [0] [0] [1] [] []
  dot_S256x512_S512x4096_S256x4096_1_0_0_1_n_n_wf : DotDims.WF S256x512 S512x4096 S256x4096 [1] [0] [0] [1] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .bf16 = 32 ∨ (Rect.block (s := S4096x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x512.size a
  hwx0_2 : ∀ i : grid0.Coords, EltTy.bits .bf16 = 32 ∨ (Rect.block (s := S4096x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x4096.size a
  hwx0_6 : ∀ i : grid0.Coords, EltTy.bits .f32 = 32 ∨ (Rect.block (s := S1x4096) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x4096.size a
  hwx0_7 : ∀ i : grid0.Coords, EltTy.bits .f32 = 32 ∨ (Rect.block (s := S1x4096) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x4096.size a
  hwx0_8 : ∀ i : grid0.Coords, EltTy.bits .f32 = 32 ∨ (Rect.block (s := S1x4096) S1x2048.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x4096.size a
  hwx1_7 : ∀ i : grid1.Coords, EltTy.bits .f32 = 32 ∨ (Rect.block (s := S1x4096) S1x4096.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x4096.size a ≤ S1x4096.size a
  hwx1_8 : ∀ i : grid1.Coords, EltTy.bits .f32 = 32 ∨ (Rect.block (s := S1x4096) S1x4096.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x512.size a ≤ S4096x512.size a
  hwx1_9 : ∀ i : grid1.Coords, EltTy.bits .f32 = 32 ∨ (Rect.block (s := S4096x512) S256x512.size (cc1_transform_9 i) (hinb1_9 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S1x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_3) S1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_2) S1x4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8_3) S1x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S256x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x8192 : Shape := ⟨2, ![4096, 8192]⟩
abbrev S8192 : Shape := ⟨1, ![8192]⟩
abbrev S1x8192 : Shape := ⟨2, ![1, 8192]⟩

abbrev nBuf : Space → Nat
  | .hbm => 95
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S512x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x512, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S512x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x8192, .f32⟩
  | .hbm, ⟨56, _⟩ => ⟨S4096x8192, .f32⟩
  | .hbm, ⟨57, _⟩ => ⟨S_, .f32⟩
  | .hbm, ⟨58, _⟩ => ⟨S4096x8192, .f32⟩
  | .hbm, ⟨59, _⟩ => ⟨S4096x8192, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S4096x8192, .f32⟩
  | .hbm, ⟨67, _⟩ => ⟨S4096x8192, .f32⟩
  | .hbm, ⟨68, _⟩ => ⟨S4096x8192, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x8192, .f32⟩
  | .hbm, ⟨73, _⟩ => ⟨S4096x8192, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S1x8192, .f32⟩
  | .hbm, ⟨80, _⟩ => ⟨S4096x8192, .f32⟩
  | .hbm, ⟨81, _⟩ => ⟨S4096x8192, .f32⟩
  | .hbm, ⟨82, _⟩ => ⟨S4096x8192, .f32⟩
  | .hbm, ⟨83, _⟩ => ⟨S_, .f32⟩
  | .hbm, ⟨84, _⟩ => ⟨S8192, .f32⟩
  | .hbm, ⟨85, _⟩ => ⟨S1x8192, .f32⟩
  | .hbm, ⟨86, _⟩ => ⟨S4096x8192, .f32⟩
  | .hbm, ⟨87, _⟩ => ⟨S4096x8192, .f32⟩
  | .hbm, ⟨88, _⟩ => ⟨S4096x8192, .f32⟩
  | .hbm, ⟨89, _⟩ => ⟨S4096x8192, .f32⟩
  | .hbm, ⟨90, _⟩ => ⟨S4096x4096, .f32⟩
  | .hbm, ⟨91, _⟩ => ⟨S4096x4096, .f32⟩
  | .hbm, ⟨92, _⟩ => ⟨S4096x512, .f32⟩
  | .hbm, ⟨93, _⟩ => ⟨S4096x512, .f32⟩
  | .hbm, ⟨94, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  reducesTo_S4096x8192_S8192_d0 : S4096x8192.ReducesTo [0] S8192
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x4096_0_0 : S4096x8192.Slices ![0, 0] S4096x4096
  slices_S4096x8192_S4096x4096_0_4096 : S4096x8192.Slices ![0, 4096] S4096x4096
  dot_S4096x512_S512x4096_S4096x4096_1_0_0_1_n_n_wf : DotDims.WF S4096x512 S512x4096 S4096x4096 [1] [0] [0] [1] [] []
  dot_S4096x4096_S4096x512_S4096x512_1_0_0_1_n_n_wf : DotDims.WF S4096x4096 S4096x512 S4096x512 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.FrKernelIdeal.R0Runs.lean ====
import proofs.«425014_j10050223472719_3_alg».proof.Proof.Gen.KernelIdeal.Launch
import proofs.«425014_j10050223472719_3_alg».proof.Proof.Gen.KernelIdeal.Skeleton
import proofs.«425014_j10050223472719_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1

theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel

theorem noFlush0_5_A : ∀ t : Fin cfg0.N, cond0_0 (grid0.coords t) → ¬cond0_1 (grid0.coords t) → (cfg0.win 5).flush t = false := by decide +kernel

theorem idleAt0_5_B : ∀ t : Fin cfg0.N, ¬cond0_0 (grid0.coords t) → ¬cond0_1 (grid0.coords t) → cfg0.idle 5 (grid0.coords t) = true := by decide +kernel

theorem noFlush0_5_B : ∀ t : Fin cfg0.N, ¬cond0_0 (grid0.coords t) → ¬cond0_1 (grid0.coords t) → (cfg0.win 5).flush t = false := by decide +kernel

theorem liveAt0_5_C : ∀ t : Fin cfg0.N, ¬cond0_0 (grid0.coords t) → cond0_1 (grid0.coords t) → cfg0.idle 5 (grid0.coords t) = false := by decide +kernel

theorem idleAt0_6_A : ∀ t : Fin cfg0.N, cond0_0 (grid0.coords t) → ¬cond0_1 (grid0.coords t) → cfg0.idle 6 (grid0.coords t) = true := by decide +kernel

theorem noFlush0_6_A : ∀ t : Fin cfg0.N, cond0_0 (grid0.coords t) → ¬cond0_1 (grid0.coords t) → (cfg0.win 6).flush t = false := by decide +kernel

theorem idleAt0_6_B : ∀ t : Fin cfg0.N, ¬cond0_0 (grid0.coords t) → ¬cond0_1 (grid0.coords t) → cfg0.idle 6 (grid0.coords t) = true := by decide +kernel

theorem noFlush0_6_B : ∀ t : Fin cfg0.N, ¬cond0_0 (grid0.coords t) → ¬cond0_1 (grid0.coords t) → (cfg0.win 6).flush t = false := by decide +kernel

theorem liveAt0_6_C : ∀ t : Fin cfg0.N, ¬cond0_0 (grid0.coords t) → cond0_1 (grid0.coords t) → cfg0.idle 6 (grid0.coords t) = false := by decide +kernel

theorem idleAt0_7_A : ∀ t : Fin cfg0.N, cond0_0 (grid0.coords t) → ¬cond0_1 (grid0.coords t) → cfg0.idle 7 (grid0.coords t) = true := by decide +kernel

theorem noFlush0_7_A : ∀ t : Fin cfg0.N, cond0_0 (grid0.coords t) → ¬cond0_1 (grid0.coords t) → (cfg0.win 7).flush t = false := by decide +kernel

theorem idleAt0_7_B : ∀ t : Fin cfg0.N, ¬cond0_0 (grid0.coords t) → ¬cond0_1 (grid0.coords t) → cfg0.idle 7 (grid0.coords t) = true := by decide +kernel

theorem noFlush0_7_B : ∀ t : Fin cfg0.N, ¬cond0_0 (grid0.coords t) → ¬cond0_1 (grid0.coords t) → (cfg0.win 7).flush t = false := by decide +kernel

theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel

theorem noFlush0_8_A : ∀ t : Fin cfg0.N, cond0_0 (grid0.coords t) → ¬cond0_1 (grid0.coords t) → (cfg0.win 8).flush t = false := by decide +kernel

theorem idleAt0_8_B : ∀ t : Fin cfg0.N, ¬cond0_0 (grid0.coords t) → ¬cond0_1 (grid0.coords t) → cfg0.idle 8 (grid0.coords t) = true := by decide +kernel

theorem noFlush0_8_B : ∀ t : Fin cfg0.N, ¬cond0_0 (grid0.coords t) → ¬cond0_1 (grid0.coords t) → (cfg0.win 8).flush t = false := by decide +kernel

theorem liveAt0_8_C : ∀ t : Fin cfg0.N, ¬cond0_0 (grid0.coords t) → cond0_1 (grid0.coords t) → cfg0.idle 8 (grid0.coords t) = false := by decide +kernel

abbrev VO0_5 : View sig .tc .vmem S1x2048 .f32 := (Memref.whole cc0_stg5_0 : Memref sig .tc .vmem S1x2048 .f32).view

abbrev VO0_6 : View sig .tc .vmem S1x2048 .f32 := (Memref.whole cc0_stg6_0 : Memref sig .tc .vmem S1x2048 .f32).view

abbrev VO0_7 : View sig .tc .vmem S1x2048 .f32 := (Memref.whole cc0_stg7_0 : Memref sig .tc .vmem S1x2048 .f32).view

abbrev VO0_8 : View sig .tc .vmem S1x2048 .f32 := (Memref.whole cc0_stg8_0 : Memref sig .tc .vmem S1x2048 .f32).view

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)

abbrev scM0_0 : Memref sig .tc .vmem S1x2048 .f32 := Memref.whole cc0_scratch0
abbrev scM0_1 : Memref sig .tc .vmem S1x2048 .f32 := Memref.whole cc0_scratch1
abbrev scM0_2 : Memref sig .tc .vmem S1x2048 .f32 := Memref.whole cc0_scratch2
abbrev scM0_3 : Memref sig .tc .vmem S1x2048 .f32 := Memref.whole cc0_scratch3

abbrev VS0_0 : View sig .tc .vmem S1x2048 .f32 := scM0_0.view
abbrev VS0_1 : View sig .tc .vmem S1x2048 .f32 := scM0_1.view
abbrev VS0_2 : View sig .tc .vmem S1x2048 .f32 := scM0_2.view
abbrev VS0_3 : View sig .tc .vmem S1x2048 .f32 := scM0_3.view

abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA; rw [scopedRest0_eq]; simp only [scM0_0, scM0_1, scM0_2, scM0_3, owns_whole]; try rfl

end Cert.KernelIdeal.Fr

end
-- ==== Proof.FrKernelIdeal.R0RunA.lean ====
import proofs.«425014_j10050223472719_3_alg».proof.Proof.FrKernelIdeal.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_A (c : Dev nD) (i : grid0.Coords) (arg2 : Memref sig .tc .vmem S256x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (hc0 : cond0_0 i) (hc1 : ¬cond0_1 i)
    (x0 : Vec F S256x512 .f32) (x1 : Vec F S2048x512 .bf16) (x2 : Vec F S2048x512 .bf16) (x3 : Vec F S1x2048 .f32) (x4 : Vec F S1x2048 .f32) :
    Σ' (L5 : List (View.Piece (Elt F) S1x2048 .f32)) (L6 : List (View.Piece (Elt F) S1x2048 .f32)) (L7 : List (View.Piece (Elt F) S1x2048 .f32)) (L8 : List (View.Piece (Elt F) S1x2048 .f32)) (LS0 : List (View.Piece (Elt F) S1x2048 .f32)) (LS1 : List (View.Piece (Elt F) S1x2048 .f32)) (LS2 : List (View.Piece (Elt F) S1x2048 .f32)), { LS3 : List (View.Piece (Elt F) S1x2048 .f32) //
      ∀ (xi5 : Vec F S1x2048 .f32) (xi6 : Vec F S1x2048 .f32) (xi7 : Vec F S1x2048 .f32) (xi8 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__colstats_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0__colstats_kernel_eq_skeleton]; unfold cc0__colstats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Fr

end
-- ==== Proof.FrKernelIdeal.R0RunB.lean ====
import proofs.«425014_j10050223472719_3_alg».proof.Proof.FrKernelIdeal.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_B (c : Dev nD) (i : grid0.Coords) (arg2 : Memref sig .tc .vmem S256x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : ¬cond0_1 i)
    (x0 : Vec F S256x512 .f32) (x1 : Vec F S2048x512 .bf16) (x2 : Vec F S2048x512 .bf16) (x3 : Vec F S1x2048 .f32) (x4 : Vec F S1x2048 .f32) (xs0 : Vec F S1x2048 .f32) (xs1 : Vec F S1x2048 .f32) (xs2 : Vec F S1x2048 .f32) (xs3 : Vec F S1x2048 .f32) :
    Σ' (L5 : List (View.Piece (Elt F) S1x2048 .f32)) (L6 : List (View.Piece (Elt F) S1x2048 .f32)) (L7 : List (View.Piece (Elt F) S1x2048 .f32)) (L8 : List (View.Piece (Elt F) S1x2048 .f32)) (LS0 : List (View.Piece (Elt F) S1x2048 .f32)) (LS1 : List (View.Piece (Elt F) S1x2048 .f32)) (LS2 : List (View.Piece (Elt F) S1x2048 .f32)), { LS3 : List (View.Piece (Elt F) S1x2048 .f32) //
      ∀ (xi5 : Vec F S1x2048 .f32) (xi6 : Vec F S1x2048 .f32) (xi7 : Vec F S1x2048 .f32) (xi8 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__colstats_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0__colstats_kernel_eq_skeleton]; unfold cc0__colstats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Fr

end
-- ==== Proof.FrKernelIdeal.R0RunC.lean ====
import proofs.«425014_j10050223472719_3_alg».proof.Proof.FrKernelIdeal.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_C (c : Dev nD) (i : grid0.Coords) (arg2 : Memref sig .tc .vmem S256x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : cond0_1 i)
    (x0 : Vec F S256x512 .f32) (x1 : Vec F S2048x512 .bf16) (x2 : Vec F S2048x512 .bf16) (x3 : Vec F S1x2048 .f32) (x4 : Vec F S1x2048 .f32) (xs0 : Vec F S1x2048 .f32) (xs1 : Vec F S1x2048 .f32) (xs2 : Vec F S1x2048 .f32) (xs3 : Vec F S1x2048 .f32) :
    Σ' (L5 : List (View.Piece (Elt F) S1x2048 .f32)) (L6 : List (View.Piece (Elt F) S1x2048 .f32)) (L7 : List (View.Piece (Elt F) S1x2048 .f32)) (L8 : List (View.Piece (Elt F) S1x2048 .f32)) (LS0 : List (View.Piece (Elt F) S1x2048 .f32)) (LS1 : List (View.Piece (Elt F) S1x2048 .f32)) (LS2 : List (View.Piece (Elt F) S1x2048 .f32)), { LS3 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__colstats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0__colstats_kernel_eq_skeleton]; unfold cc0__colstats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Fr

end
-- ==== Proof.FrKernelIdeal.R0Dat.lean ====
import proofs.«425014_j10050223472719_3_alg».proof.Proof.FrKernelIdeal.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S256x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)

section
variable (hc0 : cond0_0 i) (hc1 : ¬cond0_1 i)
  (x0 : Vec F S256x512 .f32) (x1 : Vec F S2048x512 .bf16) (x2 : Vec F S2048x512 .bf16) (x3 : Vec F S1x2048 .f32) (x4 : Vec F S1x2048 .f32)

def out0_A_5 : Vec F S1x2048 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1)

def out0_A_6 : Vec F S1x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1)

def out0_A_7 : Vec F S1x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1)

def out0_A_8 : Vec F S1x2048 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1)

theorem scover0_A_0 (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1 S1x2048.size (by sl_kernel_rfl) y

def sout0_A_0 : Vec F S1x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1)

theorem scover0_A_1 (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1 S1x2048.size (by sl_kernel_rfl) y

def sout0_A_1 : Vec F S1x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1)

theorem scover0_A_2 (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.1 S1x2048.size (by sl_kernel_rfl) y

def sout0_A_2 : Vec F S1x2048 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.1)

theorem scover0_A_3 (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.2.1 S1x2048.size (by sl_kernel_rfl) y

def sout0_A_3 : Vec F S1x2048 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.2.1)

-- What the reset case leaves in the four result windows and in the four scratch buffers, as one value.
def outs0_A : (Vec F S1x2048 .f32 × Vec F S1x2048 .f32 × Vec F S1x2048 .f32 × Vec F S1x2048 .f32) × (Vec F S1x2048 .f32 × Vec F S1x2048 .f32 × Vec F S1x2048 .f32 × Vec F S1x2048 .f32) :=
  ((out0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    out0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4),
   (sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4,
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4))

end

section
variable (hc0 : ¬cond0_0 i) (hc1 : ¬cond0_1 i)
  (x0 : Vec F S256x512 .f32) (x1 : Vec F S2048x512 .bf16) (x2 : Vec F S2048x512 .bf16) (x3 : Vec F S1x2048 .f32) (x4 : Vec F S1x2048 .f32) (xs0 : Vec F S1x2048 .f32) (xs1 : Vec F S1x2048 .f32) (xs2 : Vec F S1x2048 .f32) (xs3 : Vec F S1x2048 .f32)

def out0_B_5 : Vec F S1x2048 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

def out0_B_6 : Vec F S1x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

def out0_B_7 : Vec F S1x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

def out0_B_8 : Vec F S1x2048 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

theorem scover0_B_0 (y : S1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1 S1x2048.size (by sl_kernel_rfl) y

def sout0_B_0 : Vec F S1x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1)

theorem scover0_B_1 (y : S1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1 S1x2048.size (by sl_kernel_rfl) y

def sout0_B_1 : Vec F S1x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1)

theorem scover0_B_2 (y : S1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1 S1x2048.size (by sl_kernel_rfl) y

def sout0_B_2 : Vec F S1x2048 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1)

theorem scover0_B_3 (y : S1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1 S1x2048.size (by sl_kernel_rfl) y

def sout0_B_3 : Vec F S1x2048 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1)

-- What the accumulating case leaves in the four result windows and in the four scratch buffers, as one value.
def outs0_B : (Vec F S1x2048 .f32 × Vec F S1x2048 .f32 × Vec F S1x2048 .f32 × Vec F S1x2048 .f32) × (Vec F S1x2048 .f32 × Vec F S1x2048 .f32 × Vec F S1x2048 .f32 × Vec F S1x2048 .f32) :=
  ((out0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
   (sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3))

end

section
variable (hc0 : ¬cond0_0 i) (hc1 : cond0_1 i)
  (x0 : Vec F S256x512 .f32) (x1 : Vec F S2048x512 .bf16) (x2 : Vec F S2048x512 .bf16) (x3 : Vec F S1x2048 .f32) (x4 : Vec F S1x2048 .f32) (xs0 : Vec F S1x2048 .f32) (xs1 : Vec F S1x2048 .f32) (xs2 : Vec F S1x2048 .f32) (xs3 : Vec F S1x2048 .f32)

theorem cover0_C_5 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 S1x2048.size (by sl_kernel_rfl) y

def out0_C_5 : Vec F S1x2048 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

theorem cover0_C_6 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1 S1x2048.size (by sl_kernel_rfl) y

def out0_C_6 : Vec F S1x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

theorem cover0_C_7 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1 S1x2048.size (by sl_kernel_rfl) y

def out0_C_7 : Vec F S1x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

theorem cover0_C_8 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1 S1x2048.size (by sl_kernel_rfl) y

def out0_C_8 : Vec F S1x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

theorem scover0_C_0 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1 S1x2048.size (by sl_kernel_rfl) y

def sout0_C_0 : Vec F S1x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1)

theorem scover0_C_1 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1 S1x2048.size (by sl_kernel_rfl) y

def sout0_C_1 : Vec F S1x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1)

theorem scover0_C_2 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1 S1x2048.size (by sl_kernel_rfl) y

def sout0_C_2 : Vec F S1x2048 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1)

theorem scover0_C_3 (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1 S1x2048.size (by sl_kernel_rfl) y

def sout0_C_3 : Vec F S1x2048 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1)

-- What the closing case leaves in the four result windows and in the four scratch buffers, as one value.
def outs0_C : (Vec F S1x2048 .f32 × Vec F S1x2048 .f32 × Vec F S1x2048 .f32 × Vec F S1x2048 .f32) × (Vec F S1x2048 .f32 × Vec F S1x2048 .f32 × Vec F S1x2048 .f32 × Vec F S1x2048 .f32) :=
  ((out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
   (sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3,
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3))

end

end

def outsAt0 (c : Dev nD) : (n : ℕ) → n < cfg0.N → (Vec F S1x2048 .f32 × Vec F S1x2048 .f32 × Vec F S1x2048 .f32 × Vec F S1x2048 .f32) × (Vec F S1x2048 .f32 × Vec F S1x2048 .f32 × Vec F S1x2048 .f32 × Vec F S1x2048 .f32)
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 16 = 0 then
      if h1 : (n + 1) % 16 = 15 then
        False.elim (by omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : (n + 1) % 16 = 15 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 16 = 0) (h1 : ¬t.val % 16 = 15) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2.1
    | ⟨7, _⟩ => (outsAt0 V c t.val t.isLt).1.2.2.1
    | ⟨8, _⟩ => (outsAt0 V c t.val t.isLt).1.2.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2.1 := by dsimp only [dat0]
theorem after0_7 (c : Dev nD) (t : Fin cfg0.N) : (dat0 V c).after 7 t = (outsAt0 V c t.val t.isLt).1.2.2.1 := by dsimp only [dat0]
theorem after0_8 (c : Dev nD) (t : Fin cfg0.N) : (dat0 V c).after 8 t = (outsAt0 V c t.val t.isLt).1.2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hr⟩, Hg⟩
  isplitl [HS0 HS1 HS2 HS3 Hr]
  · isplitl [HS0]; · iexists _; iexact HS0
    isplitl [HS1]; · iexists _; iexact HS1
    isplitl [HS2]; · iexists _; iexact HS2
    isplitl [HS3]; · iexists _; iexact HS3
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Fr

end
-- ==== Proof.FrKernelIdeal.R0Body.lean ====
import proofs.«425014_j10050223472719_3_alg».proof.Proof.FrKernelIdeal.R0Dat

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in

theorem sound_body0_A0 (c : Dev nD) (t : Fin cfg0.N) (h0 : t.val % 16 = 0) (h1 : ¬t.val % 16 = 15) (hz : t.val = 0) :
    bodyPre0 V c t ⊢ wp frame (wpE (defs₀ (F := F)) Variants.none c none) Set.univ (bodyAt0 t) (fun _ => bodyPost0 V c t) := by
  have k0 := (hcond0_0 t).mpr h0
  have k1 : ¬cond0_1 (grid0.coords t) := fun h => h1 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_zero V c _ _ hz, PhiA0_eq]
  rw [leaves0_live V c 0 t (liveAt0_0 t), after0_0, leaves0_live V c 1 t (liveAt0_1 t), after0_1, leaves0_live V c 2 t (liveAt0_2 t), after0_2, leaves0_live V c 3 t (liveAt0_3 t), after0_3, leaves0_live V c 4 t (liveAt0_4 t), after0_4]
  rw [Dat.leavesExact_idle (dat0 V c) 5 t (idleAt0_5_A t k0 k1) (noFlush0_5_A t k0 k1)]
  rw [Dat.leavesExact_idle (dat0 V c) 6 t (idleAt0_6_A t k0 k1) (noFlush0_6_A t k0 k1)]
  rw [Dat.leavesExact_idle (dat0 V c) 7 t (idleAt0_7_A t k0 k1) (noFlush0_7_A t k0 k1)]
  rw [Dat.leavesExact_idle (dat0 V c) 8 t (idleAt0_8_A t k0 k1) (noFlush0_8_A t k0 k1)]
  rw [outsAt0_A V c t h0 h1]; unfold outs0_A; dsimp only
  unfold sout0_A_0 sout0_A_1 sout0_A_2 sout0_A_3; (try dsimp only)
  iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ k0 k1 (iblk0 V c 0 t) (iblk0 V c 1 t) (iblk0 V c 2 t) (iblk0 V c 3 t) (iblk0 V c 4 t)).2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 4800000 in

theorem sound_body0_A1 (c : Dev nD) (t : Fin cfg0.N) (h0 : t.val % 16 = 0) (h1 : ¬t.val % 16 = 15) (hz : t.val ≠ 0) :
    bodyPre0 V c t ⊢ wp frame (wpE (defs₀ (F := F)) Variants.none c none) Set.univ (bodyAt0 t) (fun _ => bodyPost0 V c t) := by
  have k0 := (hcond0_0 t).mpr h0
  have k1 : ¬cond0_1 (grid0.coords t) := fun h => h1 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_pos V c _ _ hz]
  rw [leaves0_live V c 0 t (liveAt0_0 t), after0_0, leaves0_live V c 1 t (liveAt0_1 t), after0_1, leaves0_live V c 2 t (liveAt0_2 t), after0_2, leaves0_live V c 3 t (liveAt0_3 t), after0_3, leaves0_live V c 4 t (liveAt0_4 t), after0_4]
  rw [Dat.leavesExact_idle (dat0 V c) 5 t (idleAt0_5_A t k0 k1) (noFlush0_5_A t k0 k1)]
  rw [Dat.leavesExact_idle (dat0 V c) 6 t (idleAt0_6_A t k0 k1) (noFlush0_6_A t k0 k1)]
  rw [Dat.leavesExact_idle (dat0 V c) 7 t (idleAt0_7_A t k0 k1) (noFlush0_7_A t k0 k1)]
  rw [Dat.leavesExact_idle (dat0 V c) 8 t (idleAt0_8_A t k0 k1) (noFlush0_8_A t k0 k1)]
  rw [outsAt0_A V c t h0 h1]; unfold outs0_A; dsimp only
  unfold sout0_A_0 sout0_A_1 sout0_A_2 sout0_A_3; (try dsimp only)
  iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ k0 k1 (iblk0 V c 0 t) (iblk0 V c 1 t) (iblk0 V c 2 t) (iblk0 V c 3 t) (iblk0 V c 4 t)).2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 4800000 in

theorem sound_body0_B (c : Dev nD) (t : Fin cfg0.N) (h0 : ¬t.val % 16 = 0) (h1 : ¬t.val % 16 = 15) (hz : t.val ≠ 0) :
    bodyPre0 V c t ⊢ wp frame (wpE (defs₀ (F := F)) Variants.none c none) Set.univ (bodyAt0 t) (fun _ => bodyPost0 V c t) := by
  have k0 : ¬cond0_0 (grid0.coords t) := fun h => h0 ((hcond0_0 t).mp h)
  have k1 : ¬cond0_1 (grid0.coords t) := fun h => h1 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_pos V c _ _ hz]
  rw [leaves0_live V c 0 t (liveAt0_0 t), after0_0, leaves0_live V c 1 t (liveAt0_1 t), after0_1, leaves0_live V c 2 t (liveAt0_2 t), after0_2, leaves0_live V c 3 t (liveAt0_3 t), after0_3, leaves0_live V c 4 t (liveAt0_4 t), after0_4]
  rw [Dat.leavesExact_idle (dat0 V c) 5 t (idleAt0_5_B t k0 k1) (noFlush0_5_B t k0 k1)]
  rw [Dat.leavesExact_idle (dat0 V c) 6 t (idleAt0_6_B t k0 k1) (noFlush0_6_B t k0 k1)]
  rw [Dat.leavesExact_idle (dat0 V c) 7 t (idleAt0_7_B t k0 k1) (noFlush0_7_B t k0 k1)]
  rw [Dat.leavesExact_idle (dat0 V c) 8 t (idleAt0_8_B t k0 k1) (noFlush0_8_B t k0 k1)]
  rw [outsAt0_B V c t h0 h1]; unfold outs0_B; dsimp only
  unfold sout0_B_0 sout0_B_1 sout0_B_2 sout0_B_3; (try dsimp only)
  iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ _ _ _ _ k0 k1 (iblk0 V c 0 t) (iblk0 V c 1 t) (iblk0 V c 2 t) (iblk0 V c 3 t) (iblk0 V c 4 t) _ _ _ _).2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 4800000 in

theorem sound_body0_C (c : Dev nD) (t : Fin cfg0.N) (h0 : ¬t.val % 16 = 0) (h1 : t.val % 16 = 15) (hz : t.val ≠ 0) :
    bodyPre0 V c t ⊢ wp frame (wpE (defs₀ (F := F)) Variants.none c none) Set.univ (bodyAt0 t) (fun _ => bodyPost0 V c t) := by
  have k0 : ¬cond0_0 (grid0.coords t) := fun h => h0 ((hcond0_0 t).mp h)
  have k1 := (hcond0_1 t).mpr h1
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_pos V c _ _ hz]
  rw [leaves0_live V c 0 t (liveAt0_0 t), after0_0, leaves0_live V c 1 t (liveAt0_1 t), after0_1, leaves0_live V c 2 t (liveAt0_2 t), after0_2, leaves0_live V c 3 t (liveAt0_3 t), after0_3, leaves0_live V c 4 t (liveAt0_4 t), after0_4]
  rw [leaves0_live V c 5 t (liveAt0_5_C t k0 k1), after0_5, leaves0_live V c 6 t (liveAt0_6_C t k0 k1), after0_6, leaves0_live V c 7 t (liveAt0_7_C t k0 k1), after0_7, leaves0_live V c 8 t (liveAt0_8_C t k0 k1), after0_8]
  rw [outsAt0_C V c t h0 h1]; unfold outs0_C; dsimp only
  unfold out0_C_5 out0_C_6 out0_C_7 out0_C_8 sout0_C_0 sout0_C_1 sout0_C_2 sout0_C_3; (try dsimp only)
  iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ _ _ _ _ k0 k1 (iblk0 V c 0 t) (iblk0 V c 1 t) (iblk0 V c 2 t) (iblk0 V c 3 t) (iblk0 V c 4 t) _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%e8, H8⟩, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_C_3 c _ _ _ _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover0_C_8 c _ _ _ _ _ _ _ _ _ _ _ _ _ _ _ _ _ _ _ _ _ _ _ _ _ _ _ _ _ _ _ _ _ _ _ _ _ _)

theorem sound_body0 (c : Dev nD) (t : Fin cfg0.N) :
    bodyPre0 V c t ⊢ wp frame (wpE (defs₀ (F := F)) Variants.none c none) Set.univ (bodyAt0 t) (fun _ => bodyPost0 V c t) := by
  have hN : t.val < 32 := lt_of_lt_of_eq t.isLt (show cfg0.N = 32 from N_0)
  by_cases h0 : t.val % 16 = 0
  · by_cases h1 : t.val % 16 = 15
    · exfalso; omega
    · by_cases hz : t.val = 0
      · exact sound_body0_A0 V c t h0 h1 hz
      · exact sound_body0_A1 V c t h0 h1 hz
  · have hz : t.val ≠ 0 := fun e => h0 (by rw [e])
    by_cases h1 : t.val % 16 = 15
    · exact sound_body0_C V c t h0 h1 hz
    · exact sound_body0_B V c t h0 h1 hz

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrKernelIdeal.R1.lean ====
import proofs.«425014_j10050223472719_3_alg».proof.Proof.Gen.KernelIdeal.Launch
import proofs.«425014_j10050223472719_3_alg».proof.Proof.Gen.KernelIdeal.Skeleton
import proofs.«425014_j10050223472719_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x512 := Rect.unit (s := S256x512) ![0, 0] S256x512.size inb_S256x512_S256x512_0_0
abbrev r1_1 : Rect S4096x512 := Rect.unit (s := S4096x512) ![0, 0] S4096x512.size inb_S4096x512_S4096x512_0_0
abbrev r1_2 : Rect S1x4096 := Rect.unit (s := S1x4096) ![0, 0] S1x4096.size inb_S1x4096_S1x4096_0_0

abbrev rowOff1 (i : grid1.Coords) : BitVec 32 := Scalar.muli (BitVec.ofNat 32 (i 0).val) 256#32

def out1_9 (i : grid1.Coords) (x0 : Vec F S256x512 .f32) (x1 x2 : Vec F S4096x512 .bf16) (x3 x4 x5 x6 x7 x8 : Vec F S1x4096 .f32) : Vec F S256x512 .f32 :=
  View.canon [⟨r1_0, k1_pay1 (k1_pay3 (View.ld x1 r1_1)) (k1_pay4 (View.ld x2 r1_1))
    (k1_pay8 (rowOff1 i) (k1_pay7 (View.ld x0 r1_0) (View.ld x1 r1_1) (View.ld x3 r1_2)))
    (k1_pay9 (rowOff1 i) (k1_pay6 (View.ld x0 r1_0) (View.ld x2 r1_1) (View.ld x4 r1_2)) (k1_pay7 (View.ld x0 r1_0) (View.ld x1 r1_1) (View.ld x3 r1_2)))
    (k1_pay10 (rowOff1 i) (k1_pay6 (View.ld x0 r1_0) (View.ld x2 r1_1) (View.ld x4 r1_2)) (k1_pay7 (View.ld x0 r1_0) (View.ld x1 r1_1) (View.ld x3 r1_2)))
    (k1_pay11 (View.ld x7 r1_2))
    (k1_pay12 (rowOff1 i) (k1_pay6 (View.ld x0 r1_0) (View.ld x2 r1_1) (View.ld x4 r1_2)) (k1_pay7 (View.ld x0 r1_0) (View.ld x1 r1_1) (View.ld x3 r1_2)) (View.ld x5 r1_2))
    (View.ld x6 r1_2) (View.ld x8 r1_2)⟩]

theorem cover1_9 (p0 : Vec F S256x512 .f32) (y : S256x512.Idx) :
    ∃ pc ∈ ([⟨r1_0, p0⟩] : List (View.Piece (Elt F) S256x512 .f32)), y ∈ pc.1.set :=
  View.cover_of_tiled [⟨r1_0, p0⟩] S256x512.size (by rfl) y

set_option maxHeartbeats 1000000 in

theorem sound_kernel1 (c : Dev nD) (E : Set ℕ) (i : grid1.Coords)
    (arg1 : Memref sig .tc .vmem S256x512 .f32) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S1x4096 .f32) (harg7 : arg7.IsWhole) (arg8 : Memref sig .tc .vmem S1x4096 .f32) (harg8 : arg8.IsWhole)
    (arg9 : Memref sig .tc .vmem S1x4096 .f32) (harg9 : arg9.IsWhole) (arg10 : Memref sig .tc .vmem S256x512 .f32) (harg10 : arg10.IsWhole)
    (x0 : Vec F S256x512 .f32) (x1 x2 : Vec F S4096x512 .bf16) (x3 x4 x5 x6 x7 x8 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 i x0 x1 x2 x3 x4 x5 x6 x7 x8)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrKernelIdeal.Main.lean ====
import proofs.«425014_j10050223472719_3_alg».proof.Proof.Gen.KernelIdeal.Launch
import proofs.«425014_j10050223472719_3_alg».proof.Proof.Gen.KernelIdeal.Skeleton
import proofs.«425014_j10050223472719_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«425014_j10050223472719_3_alg».proof.Proof.FrKernelIdeal.R0Body
import proofs.«425014_j10050223472719_3_alg».proof.Proof.FrKernelIdeal.R1
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W1_of_not_written (c : Dev nD) (b : Ref sig .tc)
    (hb : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem (b := Proc.devRef .tc b) _ _ hb

-- No host operation writes an argument array, so either one reaches the first region as launched.
theorem V1_arg (c : Dev nD) {b : Ref sig .tc} (hb : b = main_arg0 ∨ b = main_arg1) :
    V1 m ρ c b = m ((c : Thread nD τ).loc b) := by
  rcases hb with rfl | rfl <;> exact (W1_of_not_written m ρ c _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg0 (c : Dev nD) : V1 m ρ c main_arg0 = m ((c : Thread nD τ).loc main_arg0) := V1_arg m ρ c (.inl rfl)
theorem V1_main_arg1 (c : Dev nD) : V1 m ρ c main_arg1 = m ((c : Thread nD τ).loc main_arg1) := V1_arg m ρ c (.inr rfl)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := V1_main_arg1 m ρ c

theorem W3_main_v9 (c : Dev nD) : W3 m ρ c (Proc.devRef .tc main_v9) = (dat1 (V2 m ρ) c).arrAt 9 cfg1.N :=
  W3_arr m ρ c 9

theorem V2_main_arg0 (c : Dev nD) : V2 m ρ c main_arg0 = V1 m ρ c main_arg0 :=
  (W2_arr m ρ c 0).trans (((dat0 (V1 m ρ) c).arrAt_in 0 rfl _).trans (A_eq0 (V1 m ρ) c 0))
theorem V2_main_v0 (c : Dev nD) : V2 m ρ c main_v0 = V1 m ρ c main_v0 :=
  (W2_arr m ρ c 1).trans (((dat0 (V1 m ρ) c).arrAt_in 1 rfl _).trans (A_eq0 (V1 m ρ) c 1))
theorem V2_main_v1 (c : Dev nD) : V2 m ρ c main_v1 = V1 m ρ c main_v1 :=
  (W2_arr m ρ c 2).trans (((dat0 (V1 m ρ) c).arrAt_in 2 rfl _).trans (A_eq0 (V1 m ρ) c 2))
theorem V2_main_v4 (c : Dev nD) : V2 m ρ c main_v4 = V1 m ρ c main_v4 :=
  (W2_arr m ρ c 3).trans (((dat0 (V1 m ρ) c).arrAt_in 3 rfl _).trans (A_eq0 (V1 m ρ) c 3))
theorem V2_main_v7 (c : Dev nD) : V2 m ρ c main_v7 = V1 m ρ c main_v7 :=
  (W2_arr m ρ c 4).trans (((dat0 (V1 m ρ) c).arrAt_in 4 rfl _).trans (A_eq0 (V1 m ρ) c 4))

theorem V2_main_v8_0 (c : Dev nD) : V2 m ρ c main_v8_0 = (dat0 (V1 m ρ) c).arrAt 5 cfg0.N := W2_arr m ρ c 5
theorem V2_main_v8_1 (c : Dev nD) : V2 m ρ c main_v8_1 = (dat0 (V1 m ρ) c).arrAt 6 cfg0.N := W2_arr m ρ c 6
theorem V2_main_v8_2 (c : Dev nD) : V2 m ρ c main_v8_2 = (dat0 (V1 m ρ) c).arrAt 7 cfg0.N := W2_arr m ρ c 7
theorem V2_main_v8_3 (c : Dev nD) : V2 m ρ c main_v8_3 = (dat0 (V1 m ρ) c).arrAt 8 cfg0.N := W2_arr m ρ c 8

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (dat0 (V1 m ρ) c).Φ 0 := by
      have h0 := hin0 (V1 m ρ) c; unfold Pipeline.ΦA at h0; exact h0
    show _ ⊢ (dat0 (V1 m ρ) c).Φ 0
    iintro ⟨Hp, -, Hr⟩
    iapply h
    isplitl [Hr]; · iexact Hr
    iexact Hp
  hout c := by
    rw [Pipeline.ownSems0_none]
    have h : (dat0 (V1 m ρ) c).Φ (Fin.last cfg0.N) ⊢ (iprop(Pipeline.scopedRest spec0 c ∗ ∃ r, prngReg c r) : sProp 𝕄) := by
      have h0 := hout0 (V1 m ρ) c; unfold Pipeline.ΦA at h0; exact h0
    show (dat0 (V1 m ρ) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

theorem run_value : θ_run defs (onTc (τ := τ) (main (F := F))) ⟨m, fun _ => 0, ρ⟩ (fun r => ∀ c : Dev nD,
      r.2.mem ((c.tc : Thread nD τ).loc main_v9) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v9 (by decide))).trans (W3_main_v9 m ρ c),
     (h c _ (mem_uc main_arg0 (by decide))).trans (W3_main_arg0 m ρ c),
     (h c _ (mem_uc main_arg1 (by decide))).trans (W3_main_arg1 m ρ c)⟩) (run_all m ρ)

end Cert.KernelIdeal.Fr

end
-- ==== Proof.SameProgram.lean ====
import proofs.«425014_j10050223472719_3_alg».proof.Proof.FrKernelIdeal.Main
import proofs.«425014_j10050223472719_3_alg».proof.Proof.Gen.Kernel

noncomputable section

namespace Cert.Kernel.Fr

open Idealize.ShloMosaic Idealize.SL.Sem

variable {F : FTy → Type} [FloatOps F]

-- The two programs are the same terms under two names: at every float model each kernel body of one is that of the other.
theorem body0_eq : (a : Cert.Kernel.Λ₀.Args 0) →
    Cert.Kernel.defs₀ (F := F) .tc 0 a = Cert.KernelIdeal.defs₀ (F := F) .tc 0 a
  | (_, _) => rfl

theorem body1_eq : (a : Cert.Kernel.Λ₀.Args 1) →
    Cert.Kernel.defs₀ (F := F) .tc 1 a = Cert.KernelIdeal.defs₀ (F := F) .tc 1 a
  | (_, _) => rfl

theorem defs₀_eq : Cert.Kernel.defs₀ (F := F) = Cert.KernelIdeal.defs₀ (F := F) :=
  funext fun p => funext fun ℓ => funext fun a =>
    match p, ℓ, a with
    | .tc, 0, a => body0_eq a
    | .tc, 1, a => body1_eq a
    | .tc, ⟨_ + 2, h⟩, _ => absurd h (by omega)
    | .scScalar _, _, _ => rfl
    | .scVector _ _, _, _ => rfl

theorem defs_eq : Cert.Kernel.defs (F := F) = Cert.KernelIdeal.defs (F := F) :=
  congrArg (Pipeline.defs Cert.KernelIdeal.pcfgs) defs₀_eq

-- So a frame proved once, for every float model, over one name is the frame over the other.
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) := by
  rw [defs_eq]
  exact Cert.KernelIdeal.Fr.frame m ρ

end Cert.Kernel.Fr

end
-- ==== Proof.Spec.lean ====
import Idealize.ShloMosaic.PureOps.Ideal

noncomputable section

namespace Cert.Spec

open Idealize.ShloMosaic

def supF {n : ℕ} (f : Fin n → EReal) : EReal := (Finset.univ : Finset (Fin n)).fold max ⊥ f

def cTwo : EReal := Ideal.ofBits .f32 0x40000000#32
def cEps : EReal := Ideal.ofBits .f32 0x2B8CBCCC#32
def cMask : EReal := Ideal.ofBits .f32 0x49742400#32
def cTau : EReal := Ideal.ofBits .f32 0x3DCCCCCD#32
def cHalf : EReal := Ideal.ofBits .f32 0x3F000000#32

abbrev Mat := Fin 4096 → Fin 512 → EReal

variable (x y : Mat)

def sqn (a : Mat) (i : Fin 4096) : EReal := ∑ d : Fin 512, a i d * a i d

def ip (a b : Mat) (i k : Fin 4096) : EReal := ∑ d : Fin 512, a i d * b k d

def dist (a b : Mat) (i k : Fin 4096) : EReal :=
  Ideal.sqrt (max ((sqn a i + sqn b k) - cTwo * ip a b i k) cEps)

def diag (i k : Fin 4096) : EReal := if i = k then 1 else 0

def Lp (i k : Fin 4096) : EReal := Ideal.div (-(dist x y i k)) cTau

def Ln (i k : Fin 4096) : EReal := Ideal.div (-(dist x x i k + cMask * diag i k)) cTau

def L (i : Fin 4096) (c : Fin 8192) : EReal :=
  if h : c.val < 4096 then Lp x y i ⟨c.val, h⟩ else Ln x i ⟨c.val - 4096, by omega⟩

def posCol (k : Fin 4096) : Fin 8192 := ⟨k.val, by omega⟩
def negCol (k : Fin 4096) : Fin 8192 := ⟨k.val + 4096, by omega⟩

def rmaxR (i : Fin 4096) : EReal := supF fun c : Fin 8192 => L x y i c
def rsumR (i : Fin 4096) : EReal := ∑ c : Fin 8192, Ideal.exp (L x y i c - rmaxR x y i)
def cmaxR (c : Fin 8192) : EReal := supF fun i : Fin 4096 => L x y i c
def csumR (c : Fin 8192) : EReal := ∑ i : Fin 4096, Ideal.exp (L x y i c - cmaxR x y c)

def AR (i : Fin 4096) (c : Fin 8192) : EReal :=
  Ideal.sqrt (Ideal.div (Ideal.exp (L x y i c - rmaxR x y i)) (rsumR x y i)
    * Ideal.div (Ideal.exp (L x y i c - cmaxR x y c)) (csumR x y c))
def outR (i : Fin 4096) (d : Fin 512) : EReal :=
  (∑ k : Fin 4096, AR x y i (posCol k) * y k d) - (∑ k : Fin 4096, AR x y i (negCol k) * x k d)

def colStep (col : Fin 256 → EReal) (ms : EReal × EReal) : EReal × EReal :=
  let m' := max ms.1 (supF col)
  (m', ms.2 * Ideal.exp (ms.1 - m') + ∑ r : Fin 256, Ideal.exp (col r - m'))

def rowOf (b : Fin 16) (r : Fin 256) : Fin 4096 := ⟨256 * b.val + r.val, by omega⟩

def colRun (col : Fin 4096 → EReal) : ℕ → EReal × EReal
  | 0 => (⊥, 0)
  | n + 1 => if h : n < 16 then colStep (fun r => col (rowOf ⟨n, h⟩ r)) (colRun col n) else colRun col n

def cmaxKp (k : Fin 4096) : EReal := (colRun (fun i => Lp x y i k) 16).1
def csumKp (k : Fin 4096) : EReal := (colRun (fun i => Lp x y i k) 16).2
def cmaxKn (k : Fin 4096) : EReal := (colRun (fun i => Ln x i k) 16).1
def csumKn (k : Fin 4096) : EReal := (colRun (fun i => Ln x i k) 16).2

def rmaxK (i : Fin 4096) : EReal := max (supF fun k : Fin 4096 => Lp x y i k) (supF fun k : Fin 4096 => Ln x i k)
def rsumK (i : Fin 4096) : EReal :=
  (∑ k : Fin 4096, Ideal.exp (Lp x y i k - rmaxK x y i)) + (∑ k : Fin 4096, Ideal.exp (Ln x i k - rmaxK x y i))
def AKp (i k : Fin 4096) : EReal :=
  Ideal.exp (Lp x y i k - cHalf * (rmaxK x y i + cmaxKp x y k)) * Ideal.rsqrt (rsumK x y i) * Ideal.rsqrt (csumKp x y k)
def AKn (i k : Fin 4096) : EReal :=
  Ideal.exp (Ln x i k - cHalf * (rmaxK x y i + cmaxKn x k)) * Ideal.rsqrt (rsumK x y i) * Ideal.rsqrt (csumKn x k)
def outK (i : Fin 4096) (d : Fin 512) : EReal :=
  (∑ k : Fin 4096, AKp x y i k * y k d) - (∑ k : Fin 4096, AKn x y i k * x k d)

def Finite (a : Mat) : Prop := ∀ i d, ∃ r : ℝ, a i d = (r : EReal)

end Cert.Spec

end
-- ==== Proof.SpecIdx.lean ====
import proofs.«425014_j10050223472719_3_alg».proof.Proof.Spec
import Idealize.ShloMosaic.Lib.ValueIdx

noncomputable section

namespace Cert.Spec

open Idealize.ShloMosaic Idealize.ShloMosaic.ValueIdx

def mat (X : (⟨2, ![4096, 512]⟩ : Shape).Idx → EReal) : Mat := fun i d => X (ix2 i d)

def colOf (j : Fin 2) (k : Fin 2048) : Fin 4096 := ⟨2048 * j.val + k.val, by omega⟩

end Cert.Spec

end
-- ==== Proof.PayVal0.lean ====
import proofs.«425014_j10050223472719_3_alg».proof.Proof.Gen.KernelIdeal.Skeleton
import proofs.«425014_j10050223472719_3_alg».proof.Proof.SpecIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.Spec Cert.KernelIdeal Cert.KernelIdeal.Gen

def negd (i : grid0.Coords) (xb : Vec Ideal S256x512 .f32) (xf : Vec Ideal S2048x512 .bf16) (sqx : Vec Ideal S1x2048 .f32) :
    FVec Ideal S256x2048 .f32 :=
  k0_pay18 (k0_pay9 xb) (k0_pay10 xf) (k0_pay11 sqx) (k0_pay12 xb)
    (Scalar.muli (BitVec.ofNat 32 (i 1).val) 256#32) (Scalar.muli (BitVec.ofNat 32 (i 0).val) 2048#32)

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (hb : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg hb]
  | ⟨1, _⟩ => rfl

theorem sqrow_apply (xb : FVec Ideal S256x512 .f32) (r : Fin 256) (u : Fin 1) :
    k0_pay12 xb (ix2 r u) = ∑ d : Fin 512, xb (ix2 r d) * xb (ix2 r d) := by
  unfold k0_pay12
  refine (shapeCast_a_a1_apply _ _ r u).trans ?_
  refine (Ideal.multiReduction_add_single (mulf xb xb) 0x00000000#32 reduces_S256x512_S256 (.inl rfl) rfl (ix1 r)).trans ?_
  refine Finset.sum_congr rfl fun d _ => ?_
  have e : reduces_S256x512_S256.lift (ix1 r) d = ix2 r d :=
    funext fun a => Fin.ext (by match a with | ⟨0, _⟩ => rfl | ⟨1, _⟩ => rfl)
  rw [e]
  rfl

theorem lhs_dot0_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_dot0_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_dot0_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_dot0_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

theorem matmulT_apply (L : FVec Ideal S256x512 .bf16) (R : FVec Ideal S2048x512 .bf16) (r : Fin 256) (k : Fin 2048) :
    matmul dot_S256x512_S512x2048_S256x2048_1_0_0_1_n_n none L
        (transpose S512x2048 [1, 0] R transposes_S2048x512_p1_0_S512x2048) (constant (F := Ideal) S256x2048 .f32 0x00000000#32) (ix2 r k)
      = ∑ d : Fin 512, L (ix2 r d) * R (ix2 k d) := by
  generalize hT : transpose S512x2048 [1, 0] R transposes_S2048x512_p1_0_S512x2048 = T
  simp only [matmul]
  rw [Ideal.matmul_constant_zero_apply, ← Equiv.sum_comp (contrEquiv1 dot_S256x512_S512x2048_S256x2048_1_0_0_1_n_n 512 rfl rfl).symm]
  refine Finset.sum_congr rfl fun d _ => ?_
  have hd := contrEquiv1_symm_val dot_S256x512_S512x2048_S256x2048_1_0_0_1_n_n 512 rfl rfl d
  have el : dot_S256x512_S512x2048_S256x2048_1_0_0_1_n_n.lhsIdx (ix2 r k) ((contrEquiv1 dot_S256x512_S512x2048_S256x2048_1_0_0_1_n_n 512 rfl rfl).symm d) = ix2 r d := funext fun a => Fin.ext (by
    match a with
    | ⟨0, _⟩ => exact lhs_dot0_0 _ _
    | ⟨1, _⟩ => exact (lhs_dot0_1 _ _).trans hd)
  have er : dot_S256x512_S512x2048_S256x2048_1_0_0_1_n_n.rhsIdx (ix2 r k) ((contrEquiv1 dot_S256x512_S512x2048_S256x2048_1_0_0_1_n_n 512 rfl rfl).symm d) = ix2 d k := funext fun a => Fin.ext (by
    match a with
    | ⟨0, _⟩ => exact (rhs_dot0_0 _ _).trans hd
    | ⟨1, _⟩ => exact rhs_dot0_1 _ _)
  rw [el, er, ← hT, transpose_ix2_apply]

theorem ofBits_neginf_f32 : Ideal.ofBits .f32 0xFF800000#32 = (⊥ : EReal) := by simp [Ideal.ofBits, Ideal.ieee]

theorem colmax_apply (V : FVec Ideal S256x2048 .f32) (u : Fin 1) (k : Fin 2048) :
    shapeCast S1x2048 (multiReduction .maximumf [0] S2048 V 0xFF800000#32 reduces_S256x2048_S2048 (.inl rfl) rfl)
        shapeCasts_S2048_S1x2048 (ix2 u k)
      = supF fun r : Fin 256 => V (ix2 r k) := by
  refine (shapeCast_a_1a_apply _ _ u k).trans ?_
  refine (Ideal.multiReduction_maximumf_single V 0xFF800000#32 reduces_S256x2048_S2048 (.inl rfl) rfl (ix1 k)).trans ?_
  have e : (V ∘ reduces_S256x2048_S2048.lift (ix1 k)) = fun r : Fin 256 => V (ix2 r k) := funext fun r => by
    show V (reduces_S256x2048_S2048.lift (ix1 k) r) = V (ix2 r k)
    exact congrArg V (funext fun a => Fin.ext (by match a with | ⟨0, _⟩ => rfl | ⟨1, _⟩ => rfl))
  rw [e]
  show (Finset.univ : Finset (Fin 256)).fold max (Ideal.ofBits .f32 0xFF800000#32) _ = _
  rw [ofBits_neginf_f32]
  rfl

theorem colsum_apply (V : FVec Ideal S256x2048 .f32) (u : Fin 1) (k : Fin 2048) :
    shapeCast S1x2048 (multiReduction .add [0] S2048 V 0x00000000#32 reduces_S256x2048_S2048 (.inl rfl) rfl)
        shapeCasts_S2048_S1x2048 (ix2 u k)
      = ∑ r : Fin 256, V (ix2 r k) := by
  refine (shapeCast_a_1a_apply _ _ u k).trans ?_
  refine (Ideal.multiReduction_add_single V 0x00000000#32 reduces_S256x2048_S2048 (.inl rfl) rfl (ix1 k)).trans ?_
  refine Finset.sum_congr rfl fun r _ => ?_
  exact congrArg V (funext fun a => Fin.ext (by match a with | ⟨0, _⟩ => rfl | ⟨1, _⟩ => rfl))

section Pointwise
variable {s : Shape} {φ : FTy}

theorem sqrt_apply (a : FVec Ideal s φ) (i : s.Idx) : sqrt a i = Ideal.sqrt (a i) := rfl

theorem exp_apply (a : FVec Ideal s φ) (i : s.Idx) : exp a i = Ideal.exp (a i) := rfl

theorem scalar_ofBits (b : BitVec φ.bits) : Scalar.ofBits (F := Ideal) φ b = Ideal.ofBits φ b := rfl
end Pointwise

theorem pay13_apply (xb : Vec Ideal S256x512 .f32) (yf : Vec Ideal S2048x512 .bf16) (sqy : Vec Ideal S1x2048 .f32)
    (r : Fin 256) (k : Fin 2048) :
    k0_pay13 xb yf sqy (ix2 r k)
      = Ideal.div (-(Ideal.sqrt (max (((∑ d : Fin 512, xb (ix2 r d) * xb (ix2 r d)) + sqy (ix2 0 k))
          - cTwo * ∑ d : Fin 512, xb (ix2 r d) * yf (ix2 k d)) cEps))) cTau := by
  unfold k0_pay13
  simp only [divf_apply, subf_apply, sqrt_apply, maximumf_apply, addf_apply, mulf_apply, broadcast_apply, scalar_ofBits,
    shapeCast_self]
  rw [broadcastTo_a1_ab_apply _ _ (by decide), broadcastTo_1b_ab_apply, sqrow_apply, matmulT_apply,
    Ideal.ofBits_zero_f32, zero_sub]
  rfl

theorem pay14_apply (xb : Vec Ideal S256x512 .f32) (yf : Vec Ideal S2048x512 .bf16) (sqy : Vec Ideal S1x2048 .f32) (k : Fin 2048) :
    k0_pay14 xb yf sqy (ix2 0 k) = supF fun r : Fin 256 => k0_pay13 xb yf sqy (ix2 r k) := by
  unfold k0_pay14
  exact colmax_apply _ 0 k

theorem pay16_apply (bm : FVec Ideal S1x2048 .f32) (mp : Vec Ideal S1x2048 .f32) (k : Fin 2048) :
    k0_pay16 bm mp (ix2 0 k) = max (mp (ix2 0 k)) (bm (ix2 0 k)) := by
  unfold k0_pay16 k0_pay15
  simp only [shapeCast_self]
  rfl

theorem pay17_apply (Lg : FVec Ideal S256x2048 .f32) (bm : FVec Ideal S1x2048 .f32) (mp sp : Vec Ideal S1x2048 .f32) (k : Fin 2048) :
    k0_pay17 Lg bm mp sp (ix2 0 k)
      = sp (ix2 0 k) * Ideal.exp (mp (ix2 0 k) - max (mp (ix2 0 k)) (bm (ix2 0 k)))
        + ∑ r : Fin 256, Ideal.exp (Lg (ix2 r k) - max (mp (ix2 0 k)) (bm (ix2 0 k))) := by
  unfold k0_pay17 k0_pay15
  simp only [shapeCast_self]
  simp only [addf_apply, mulf_apply, exp_apply, subf_apply, maximumf_apply]
  rw [colsum_apply]
  refine congrArg _ (Finset.sum_congr rfl fun r _ => ?_)
  simp only [exp_apply, subf_apply]
  rw [broadcastTo_1b_ab_apply]
  rfl

section IntPointwise
variable {s : Shape} {w : ℕ}

theorem addi_apply (a b : IVec s w) (i : s.Idx) : addi a b i = IntOp.addi (a i) (b i) := rfl

theorem cmpi_apply (p : CmpIPredicate) (a b : IVec s w) (i : s.Idx) : cmpi p a b i = IntOp.cmpi p (a i) (b i) := rfl
end IntPointwise

def maskWord (rowOff colOff : BitVec 32) (r : Fin 256) (k : Fin 2048) : BitVec 32 :=
  (IntOp.cmpi .eq (IntOp.addi rowOff (BitVec.ofNat 32 r.val)) (IntOp.addi colOff (BitVec.ofNat 32 k.val))).setWidth 32

theorem pay18_apply (v4 : FVec Ideal S256x512 .bf16) (v6 : FVec Ideal S2048x512 .bf16) (v10 : FVec Ideal S1x2048 .f32)
    (v15 : FVec Ideal S256x1 .f32) (v16 v17 : BitVec 32) (r : Fin 256) (k : Fin 2048) :
    k0_pay18 v4 v6 v10 v15 v16 v17 (ix2 r k)
      = -(Ideal.sqrt (max ((v15 (ix2 r (0 : Fin 1)) + v10 (ix2 (0 : Fin 1) k))
            - cTwo * ∑ d : Fin 512, v4 (ix2 r d) * v6 (ix2 k d)) cEps)
          + cMask * (((maskWord v16 v17 r k).toInt : ℝ) : EReal)) := by
  unfold k0_pay18
  simp only [subf_apply, addf_apply, mulf_apply, sqrt_apply, maximumf_apply, broadcast_apply, scalar_ofBits, sitofp_apply,
    extui_apply, cmpi_apply]
  rw [broadcastTo_a1_ab_apply _ _ (by decide), broadcastTo_1b_ab_apply, matmulT_apply, Ideal.ofBits_zero_f32, zero_sub,
    broadcastTo_a1_ab_apply _ _ (by decide), broadcastTo_1b_ab_apply, addi_apply, addi_apply, iota_single_apply,
    iota_single_apply]
  rfl

theorem rowWord (b r : ℕ) (hb : b < 16) (hr : r < 256) :
    IntOp.addi (Scalar.muli (BitVec.ofNat 32 b) 256#32) (BitVec.ofNat 32 r) = BitVec.ofNat 32 (256 * b + r) := by
  apply BitVec.eq_of_toNat_eq
  simp [IntOp.addi, Scalar.muli, IntOp.muli, BitVec.toNat_add, BitVec.toNat_mul, BitVec.toNat_ofNat]
  omega

theorem colWord (j k : ℕ) (hj : j < 2) (hk : k < 2048) :
    IntOp.addi (Scalar.muli (BitVec.ofNat 32 j) 2048#32) (BitVec.ofNat 32 k) = BitVec.ofNat 32 (2048 * j + k) := by
  apply BitVec.eq_of_toNat_eq
  simp [IntOp.addi, Scalar.muli, IntOp.muli, BitVec.toNat_add, BitVec.toNat_mul, BitVec.toNat_ofNat]
  omega

theorem eqWord_toInt (A B : ℕ) (hA : A < 4096) (hB : B < 4096) :
    (((IntOp.cmpi .eq (BitVec.ofNat 32 A) (BitVec.ofNat 32 B)).setWidth 32).toInt : ℤ) = if A = B then 1 else 0 := by
  by_cases h : A = B
  · subst h
    have e : IntOp.cmpi .eq (BitVec.ofNat 32 A) (BitVec.ofNat 32 A) = 1#1 := by simp [IntOp.cmpi]
    rw [e, if_pos rfl]
    decide
  · have hne : BitVec.ofNat 32 A ≠ BitVec.ofNat 32 B := fun e => h (by
      have := congrArg BitVec.toNat e
      simp only [BitVec.toNat_ofNat] at this
      omega)
    have e : IntOp.cmpi .eq (BitVec.ofNat 32 A) (BitVec.ofNat 32 B) = 0#1 := by
      show BitVec.ofBool (BitVec.ofNat 32 A == BitVec.ofNat 32 B) = 0#1
      rw [beq_eq_false_iff_ne.mpr hne]
      rfl
    rw [e, if_neg h]
    decide

theorem maskWord_eq_diag (b : Fin 16) (j : Fin 2) (r : Fin 256) (k : Fin 2048) (w1 w0 : ℕ) (h1 : w1 = b.val) (h0 : w0 = j.val) :
    (((maskWord (Scalar.muli (BitVec.ofNat 32 w1) 256#32) (Scalar.muli (BitVec.ofNat 32 w0) 2048#32) r k).toInt : ℝ) : EReal)
      = diag (rowOf b r) (colOf j k) := by
  subst h1 h0
  unfold maskWord
  rw [rowWord b.val r.val b.isLt r.isLt, colWord j.val k.val j.isLt k.isLt,
    eqWord_toInt _ _ (by have := b.isLt; have := r.isLt; omega) (by have := j.isLt; have := k.isLt; omega)]
  unfold diag rowOf colOf
  by_cases h : 256 * b.val + r.val = 2048 * j.val + k.val
  · rw [if_pos h, if_pos (Fin.ext h)]; simp
  · rw [if_neg h, if_neg (fun e => h (Fin.ext_iff.mp e))]; simp

theorem pay1_negd_apply (xb : Vec Ideal S256x512 .f32) (xf : Vec Ideal S2048x512 .bf16) (sqx : Vec Ideal S1x2048 .f32)
    (i : grid0.Coords) (r : Fin 256) (k : Fin 2048) :
    k0_pay1 (negd i xb xf sqx) (ix2 r k)
      = Ideal.div (-(Ideal.sqrt (max (((∑ d : Fin 512, xb (ix2 r d) * xb (ix2 r d)) + sqx (ix2 0 k))
            - cTwo * ∑ d : Fin 512, xb (ix2 r d) * xf (ix2 k d)) cEps)
          + cMask * (((maskWord (Scalar.muli (BitVec.ofNat 32 (i 1).val) 256#32)
              (Scalar.muli (BitVec.ofNat 32 (i 0).val) 2048#32) r k).toInt : ℝ) : EReal))) cTau := by
  unfold k0_pay1 negd
  simp only [divf_apply, broadcast_apply, scalar_ofBits]
  rw [pay18_apply, sqrow_apply]
  unfold k0_pay11 k0_pay10 k0_pay9
  simp only [shapeCast_self]
  rfl

theorem pay2_apply (v79 : FVec Ideal S256x2048 .f32) (mn : Vec Ideal S1x2048 .f32) (k : Fin 2048) :
    k0_pay2 v79 mn (ix2 0 k) = max (mn (ix2 0 k)) (supF fun r : Fin 256 => k0_pay1 v79 (ix2 r k)) := by
  unfold k0_pay2
  simp only [maximumf_apply]
  rw [colmax_apply]

theorem pay3_apply (v79 : FVec Ideal S256x2048 .f32) (mn : Vec Ideal S1x2048 .f32) (k : Fin 2048) :
    k0_pay3 v79 mn (ix2 0 k) = max (mn (ix2 0 k)) (supF fun r : Fin 256 => k0_pay1 v79 (ix2 r k)) := by
  unfold k0_pay3
  simp only [shapeCast_self]
  exact pay2_apply v79 mn k

theorem pay4_apply (v79 : FVec Ideal S256x2048 .f32) (mn sn : Vec Ideal S1x2048 .f32) (k : Fin 2048) :
    k0_pay4 v79 mn sn (ix2 0 k)
      = sn (ix2 0 k) * Ideal.exp (mn (ix2 0 k) - k0_pay2 v79 mn (ix2 0 k))
        + ∑ r : Fin 256, Ideal.exp (k0_pay1 v79 (ix2 r k) - k0_pay2 v79 mn (ix2 0 k)) := by
  unfold k0_pay4
  simp only [shapeCast_self]
  simp only [addf_apply, mulf_apply, exp_apply, subf_apply]
  rw [colsum_apply]
  refine congrArg _ (Finset.sum_congr rfl fun r _ => ?_)
  simp only [exp_apply, subf_apply]
  rw [broadcastTo_1b_ab_apply]

section
variable (x y : Mat) (b : Fin 16) (j : Fin 2)
variable (xb : Vec Ideal S256x512 .f32) (xf yf : Vec Ideal S2048x512 .bf16) (sqx sqy : Vec Ideal S1x2048 .f32)

theorem logits_pos (hxb : ∀ r d, xb (ix2 r d) = x (rowOf b r) d) (hyf : ∀ k d, yf (ix2 k d) = y (colOf j k) d)
    (hsqy : ∀ k, sqy (ix2 0 k) = sqn y (colOf j k)) (r : Fin 256) (k : Fin 2048) :
    k0_pay13 xb yf sqy (ix2 r k) = Lp x y (rowOf b r) (colOf j k) := by
  rw [pay13_apply]
  simp only [hxb, hyf, hsqy]
  rfl

theorem newmax_pos (hxb : ∀ r d, xb (ix2 r d) = x (rowOf b r) d) (hyf : ∀ k d, yf (ix2 k d) = y (colOf j k) d)
    (hsqy : ∀ k, sqy (ix2 0 k) = sqn y (colOf j k)) (mp : Vec Ideal S1x2048 .f32) (s : EReal) (k : Fin 2048) :
    k0_pay16 (k0_pay14 xb yf sqy) mp (ix2 0 k)
      = (colStep (fun r => Lp x y (rowOf b r) (colOf j k)) (mp (ix2 0 k), s)).1 := by
  rw [pay16_apply, pay14_apply]
  simp only [logits_pos x y b j xb yf sqy hxb hyf hsqy]
  rfl

theorem newsum_pos (hxb : ∀ r d, xb (ix2 r d) = x (rowOf b r) d) (hyf : ∀ k d, yf (ix2 k d) = y (colOf j k) d)
    (hsqy : ∀ k, sqy (ix2 0 k) = sqn y (colOf j k)) (mp sp : Vec Ideal S1x2048 .f32) (k : Fin 2048) :
    k0_pay17 (k0_pay13 xb yf sqy) (k0_pay14 xb yf sqy) mp sp (ix2 0 k)
      = (colStep (fun r => Lp x y (rowOf b r) (colOf j k)) (mp (ix2 0 k), sp (ix2 0 k))).2 := by
  rw [pay17_apply, pay14_apply]
  simp only [logits_pos x y b j xb yf sqy hxb hyf hsqy]
  rfl

theorem logits_neg (i : grid0.Coords) (hi0 : (i 0).val = j.val) (hi1 : (i 1).val = b.val)
    (hxb : ∀ r d, xb (ix2 r d) = x (rowOf b r) d) (hxf : ∀ k d, xf (ix2 k d) = x (colOf j k) d)
    (hsqx : ∀ k, sqx (ix2 0 k) = sqn x (colOf j k)) (r : Fin 256) (k : Fin 2048) :
    k0_pay1 (negd i xb xf sqx) (ix2 r k) = Ln x (rowOf b r) (colOf j k) := by
  rw [pay1_negd_apply, maskWord_eq_diag b j r k _ _ hi1 hi0]
  simp only [hxb, hxf, hsqx]
  rfl

theorem newmax_neg (i : grid0.Coords) (hi0 : (i 0).val = j.val) (hi1 : (i 1).val = b.val)
    (hxb : ∀ r d, xb (ix2 r d) = x (rowOf b r) d) (hxf : ∀ k d, xf (ix2 k d) = x (colOf j k) d)
    (hsqx : ∀ k, sqx (ix2 0 k) = sqn x (colOf j k)) (mn : Vec Ideal S1x2048 .f32) (s : EReal) (k : Fin 2048) :
    k0_pay3 (negd i xb xf sqx) mn (ix2 0 k)
      = (colStep (fun r => Ln x (rowOf b r) (colOf j k)) (mn (ix2 0 k), s)).1 := by
  rw [pay3_apply]
  simp only [logits_neg x b j xb xf sqx i hi0 hi1 hxb hxf hsqx]
  rfl

theorem newsum_neg (i : grid0.Coords) (hi0 : (i 0).val = j.val) (hi1 : (i 1).val = b.val)
    (hxb : ∀ r d, xb (ix2 r d) = x (rowOf b r) d) (hxf : ∀ k d, xf (ix2 k d) = x (colOf j k) d)
    (hsqx : ∀ k, sqx (ix2 0 k) = sqn x (colOf j k)) (mn sn : Vec Ideal S1x2048 .f32) (k : Fin 2048) :
    k0_pay4 (negd i xb xf sqx) mn sn (ix2 0 k)
      = (colStep (fun r => Ln x (rowOf b r) (colOf j k)) (mn (ix2 0 k), sn (ix2 0 k))).2 := by
  rw [pay4_apply, pay2_apply]
  simp only [logits_neg x b j xb xf sqx i hi0 hi1 hxb hxf hsqx]
  rfl

end

theorem reset5 (k : Fin 2048) : k0_pay5 (F := Ideal) (ix2 0 k) = (⊥ : EReal) := by
  unfold k0_pay5
  simp only [shapeCast_self, broadcast_apply, scalar_ofBits]
  exact ofBits_neginf_f32
theorem reset6 (k : Fin 2048) : k0_pay6 (F := Ideal) (ix2 0 k) = (⊥ : EReal) := by
  unfold k0_pay6
  simp only [shapeCast_self, broadcast_apply, scalar_ofBits]
  exact ofBits_neginf_f32
theorem reset7 (k : Fin 2048) : k0_pay7 (F := Ideal) (ix2 0 k) = (0 : EReal) := by
  unfold k0_pay7
  simp only [shapeCast_self, broadcast_apply, scalar_ofBits]
  exact Ideal.ofBits_zero_f32
theorem reset8 (k : Fin 2048) : k0_pay8 (F := Ideal) (ix2 0 k) = (0 : EReal) := by
  unfold k0_pay8
  simp only [shapeCast_self, broadcast_apply, scalar_ofBits]
  exact Ideal.ofBits_zero_f32

end Cert.KernelIdeal.PayVal

end
-- ==== Proof.Val0Run.lean ====
import proofs.«425014_j10050223472719_3_alg».proof.Proof.PayVal0
import proofs.«425014_j10050223472719_3_alg».proof.Proof.SpecIdx
import Idealize.ShloMosaic.Lib.ValueIdx

noncomputable section

namespace Cert.KernelIdeal.Val

open Idealize.ShloMosaic Idealize.ShloMosaic.ValueIdx Cert.Spec Cert.KernelIdeal Cert.KernelIdeal.Gen Cert.KernelIdeal.PayVal

abbrev Scr := Vec Ideal S1x2048 .f32 × Vec Ideal S1x2048 .f32 × Vec Ideal S1x2048 .f32 × Vec Ideal S1x2048 .f32

def resetS : Scr := (k0_pay5 (F := Ideal), k0_pay6 (F := Ideal), k0_pay7 (F := Ideal), k0_pay8 (F := Ideal))

def stepS (i : grid0.Coords) (x0 : Vec Ideal S256x512 .f32) (x1 x2 : Vec Ideal S2048x512 .bf16) (x3 x4 : Vec Ideal S1x2048 .f32)
    (S : Scr) : Scr :=
  (k0_pay16 (k0_pay14 x0 x2 x4) S.1, k0_pay3 (negd i x0 x1 x3) S.2.1,
    k0_pay17 (k0_pay13 x0 x2 x4) (k0_pay14 x0 x2 x4) S.1 S.2.2.1, k0_pay4 (negd i x0 x1 x3) S.2.1 S.2.2.2)

structure BlocksAt (x y : Mat) (n : ℕ) (hn : n < 32) (i : grid0.Coords) (x0 : Vec Ideal S256x512 .f32)
    (x1 x2 : Vec Ideal S2048x512 .bf16) (x3 x4 : Vec Ideal S1x2048 .f32) : Prop where
  hi0 : (i 0).val = n / 16
  hi1 : (i 1).val = n % 16
  hx0 : ∀ r d, x0 (ix2 r d) = x (rowOf ⟨n % 16, Nat.mod_lt n (by decide)⟩ r) d
  hx1 : ∀ k d, x1 (ix2 k d) = x (colOf ⟨n / 16, by omega⟩ k) d
  hx2 : ∀ k d, x2 (ix2 k d) = y (colOf ⟨n / 16, by omega⟩ k) d
  hx3 : ∀ k, x3 (ix2 0 k) = sqn x (colOf ⟨n / 16, by omega⟩ k)
  hx4 : ∀ k, x4 (ix2 0 k) = sqn y (colOf ⟨n / 16, by omega⟩ k)

def TracksAt (x y : Mat) (j : Fin 2) (m : ℕ) (S : Scr) : Prop :=
  ∀ k : Fin 2048,
    S.1 (ix2 0 k) = (colRun (fun i => Lp x y i (colOf j k)) m).1
    ∧ S.2.1 (ix2 0 k) = (colRun (fun i => Ln x i (colOf j k)) m).1
    ∧ S.2.2.1 (ix2 0 k) = (colRun (fun i => Lp x y i (colOf j k)) m).2
    ∧ S.2.2.2 (ix2 0 k) = (colRun (fun i => Ln x i (colOf j k)) m).2

def Tracks (x y : Mat) (n : ℕ) (hn : n < 32) (S : Scr) : Prop :=
  ∀ k : Fin 2048,
    S.1 (ix2 0 k) = (colRun (fun i => Lp x y i (colOf ⟨n / 16, by omega⟩ k)) (n % 16 + 1)).1
    ∧ S.2.1 (ix2 0 k) = (colRun (fun i => Ln x i (colOf ⟨n / 16, by omega⟩ k)) (n % 16 + 1)).1
    ∧ S.2.2.1 (ix2 0 k) = (colRun (fun i => Lp x y i (colOf ⟨n / 16, by omega⟩ k)) (n % 16 + 1)).2
    ∧ S.2.2.2 (ix2 0 k) = (colRun (fun i => Ln x i (colOf ⟨n / 16, by omega⟩ k)) (n % 16 + 1)).2

theorem tracks_iff (x y : Mat) (n : ℕ) (hn : n < 32) (S : Scr) :
    Tracks x y n hn S ↔ TracksAt x y ⟨n / 16, by omega⟩ (n % 16 + 1) S := Iff.rfl

theorem TracksAt.congr {x y : Mat} {j j' : Fin 2} {m m' : ℕ} {S : Scr} (hj : j = j') (hm : m = m')
    (h : TracksAt x y j m S) : TracksAt x y j' m' S := by subst hj; subst hm; exact h

theorem colRun_succ (col : Fin 4096 → EReal) (b : Fin 16) :
    colRun col (b.val + 1) = colStep (fun r => col (rowOf b r)) (colRun col b.val) := by
  rw [colRun, dif_pos b.isLt]

theorem tracksAt_reset (x y : Mat) (j : Fin 2) : TracksAt x y j 0 resetS :=
  fun k => ⟨reset5 k, reset6 k, reset7 k, reset8 k⟩

theorem tracksAt_step (x y : Mat) (j : Fin 2) (b : Fin 16) (i : grid0.Coords) (hi0 : (i 0).val = j.val) (hi1 : (i 1).val = b.val)
    (x0 : Vec Ideal S256x512 .f32) (x1 x2 : Vec Ideal S2048x512 .bf16) (x3 x4 : Vec Ideal S1x2048 .f32)
    (hx0 : ∀ r d, x0 (ix2 r d) = x (rowOf b r) d) (hx1 : ∀ k d, x1 (ix2 k d) = x (colOf j k) d)
    (hx2 : ∀ k d, x2 (ix2 k d) = y (colOf j k) d) (hx3 : ∀ k, x3 (ix2 0 k) = sqn x (colOf j k))
    (hx4 : ∀ k, x4 (ix2 0 k) = sqn y (colOf j k)) (S : Scr) (hS : TracksAt x y j b.val S) :
    TracksAt x y j (b.val + 1) (stepS i x0 x1 x2 x3 x4 S) := by
  intro k
  obtain ⟨h1, h2, h3, h4⟩ := hS k
  have s1 := newmax_pos x y b j x0 x2 x4 hx0 hx2 hx4 S.1 (S.2.2.1 (ix2 0 k)) k
  have s2 := newmax_neg x b j x0 x1 x3 i hi0 hi1 hx0 hx1 hx3 S.2.1 (S.2.2.2 (ix2 0 k)) k
  have s3 := newsum_pos x y b j x0 x2 x4 hx0 hx2 hx4 S.1 S.2.2.1 k
  have s4 := newsum_neg x b j x0 x1 x3 i hi0 hi1 hx0 hx1 hx3 S.2.1 S.2.2.2 k
  rw [h1, h3] at s1 s3
  rw [h2, h4] at s2 s4
  rw [colRun_succ, colRun_succ]
  exact ⟨s1, s2, s3, s4⟩

theorem tracks_first (x y : Mat) (n : ℕ) (hn : n < 32) (h0 : n % 16 = 0) (i : grid0.Coords)
    (x0 : Vec Ideal S256x512 .f32) (x1 x2 : Vec Ideal S2048x512 .bf16) (x3 x4 : Vec Ideal S1x2048 .f32)
    (hB : BlocksAt x y n hn i x0 x1 x2 x3 x4) : Tracks x y n hn (stepS i x0 x1 x2 x3 x4 resetS) :=
  tracksAt_step x y ⟨n / 16, by omega⟩ ⟨n % 16, Nat.mod_lt n (by decide)⟩ i hB.hi0 hB.hi1 x0 x1 x2 x3 x4
    hB.hx0 hB.hx1 hB.hx2 hB.hx3 hB.hx4 resetS ((tracksAt_reset x y _).congr rfl h0.symm)

theorem tracks_next (x y : Mat) (n : ℕ) (hn : n + 1 < 32) (h0 : (n + 1) % 16 ≠ 0) (S : Scr) (hS : Tracks x y n (by omega) S)
    (i : grid0.Coords) (x0 : Vec Ideal S256x512 .f32) (x1 x2 : Vec Ideal S2048x512 .bf16) (x3 x4 : Vec Ideal S1x2048 .f32)
    (hB : BlocksAt x y (n + 1) hn i x0 x1 x2 x3 x4) : Tracks x y (n + 1) hn (stepS i x0 x1 x2 x3 x4 S) :=
  tracksAt_step x y ⟨(n + 1) / 16, by omega⟩ ⟨(n + 1) % 16, Nat.mod_lt _ (by decide)⟩ i hB.hi0 hB.hi1 x0 x1 x2 x3 x4
    hB.hx0 hB.hx1 hB.hx2 hB.hx3 hB.hx4 S
    (((tracks_iff x y n (by omega) S).mp hS).congr (Fin.ext (by show n / 16 = (n + 1) / 16; omega)) (by show n % 16 + 1 = (n + 1) % 16; omega))

theorem tracks_last (x y : Mat) (n : ℕ) (hn : n < 32) (h15 : n % 16 = 15) (S : Scr) (hS : Tracks x y n hn S) (k : Fin 2048) :
    S.1 (ix2 0 k) = cmaxKp x y (colOf ⟨n / 16, by omega⟩ k) ∧ S.2.1 (ix2 0 k) = cmaxKn x (colOf ⟨n / 16, by omega⟩ k)
    ∧ S.2.2.1 (ix2 0 k) = csumKp x y (colOf ⟨n / 16, by omega⟩ k) ∧ S.2.2.2 (ix2 0 k) = csumKn x (colOf ⟨n / 16, by omega⟩ k) :=
  (((tracks_iff x y n hn S).mp hS).congr rfl (by omega : n % 16 + 1 = 16)) k

end Cert.KernelIdeal.Val

end
-- ==== Proof.R0Pieces.lean ====
import proofs.«425014_j10050223472719_3_alg».proof.Proof.FrKernelIdeal.R0Dat
import proofs.«425014_j10050223472719_3_alg».proof.Proof.Val0Run
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.KernelIdeal.Fr Cert.KernelIdeal.PayVal

theorem r0_zero_off : (![0, 0] : Fin 2 → Nat) = fun _ => 0 := funext fun a => by fin_cases a <;> rfl

variable (c : Dev nD) (i : grid0.Coords) (arg2 : Memref sig .tc .vmem S256x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)

-- Each case's four scratch contents, read back from the pieces its stores leave, are one step of the running statistics.
section First
variable (hc0 : cond0_0 i) (hc1 : ¬cond0_1 i) (x0 : Vec Ideal S256x512 .f32) (x1 : Vec Ideal S2048x512 .bf16) (x2 : Vec Ideal S2048x512 .bf16) (x3 : Vec Ideal S1x2048 .f32) (x4 : Vec Ideal S1x2048 .f32)

theorem scrA : (outs0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2 = stepS i x0 x1 x2 x3 x4 resetS := by
  unfold outs0_A stepS resetS sout0_A_0 sout0_A_1 sout0_A_2 sout0_A_3 negd
  dsimp only
  simp only [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4),
    View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4),
    View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4),
    View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  simp only [View.canon_cons_unit_zero (S := S1x2048) r0_zero_off, View.readAt_eq_ld, harg2.read_unread, harg3.read_unread, harg4.read_unread, harg5.read_unread, harg6.read_unread,
    harg11.read_unread, harg12.read_unread, harg13.read_unread, harg14.read_unread,
    View.ld_unit_zero (S := S256x512) r0_zero_off, View.ld_unit_zero (S := S2048x512) r0_zero_off,
    View.ld_unit_zero (S := S1x2048) r0_zero_off, View.readCov_unit_zero (S := S1x2048) _ r0_zero_off]

end First

section Middle
variable (hc0 : ¬cond0_0 i) (hc1 : ¬cond0_1 i) (x0 : Vec Ideal S256x512 .f32) (x1 : Vec Ideal S2048x512 .bf16) (x2 : Vec Ideal S2048x512 .bf16) (x3 : Vec Ideal S1x2048 .f32) (x4 : Vec Ideal S1x2048 .f32) (xs0 : Vec Ideal S1x2048 .f32) (xs1 : Vec Ideal S1x2048 .f32) (xs2 : Vec Ideal S1x2048 .f32) (xs3 : Vec Ideal S1x2048 .f32)

theorem scrB : (outs0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2 = stepS i x0 x1 x2 x3 x4 (xs0, xs1, xs2, xs3) := by
  unfold outs0_B stepS sout0_B_0 sout0_B_1 sout0_B_2 sout0_B_3 negd
  dsimp only
  simp only [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_B
  dsimp only
  sl_unfold_words
  simp only [View.canon_unit_zero (S := S1x2048) r0_zero_off, View.readAt_eq_ld, harg2.read_unread, harg3.read_unread, harg4.read_unread, harg5.read_unread, harg6.read_unread,
    harg11.read_unread, harg12.read_unread, harg13.read_unread, harg14.read_unread,
    View.ld_unit_zero (S := S256x512) r0_zero_off, View.ld_unit_zero (S := S2048x512) r0_zero_off,
    View.ld_unit_zero (S := S1x2048) r0_zero_off, View.readCov_unit_zero (S := S1x2048) _ r0_zero_off]

end Middle

section Last
variable (hc0 : ¬cond0_0 i) (hc1 : cond0_1 i) (x0 : Vec Ideal S256x512 .f32) (x1 : Vec Ideal S2048x512 .bf16) (x2 : Vec Ideal S2048x512 .bf16) (x3 : Vec Ideal S1x2048 .f32) (x4 : Vec Ideal S1x2048 .f32) (xs0 : Vec Ideal S1x2048 .f32) (xs1 : Vec Ideal S1x2048 .f32) (xs2 : Vec Ideal S1x2048 .f32) (xs3 : Vec Ideal S1x2048 .f32)

theorem scrC : (outs0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2 = stepS i x0 x1 x2 x3 x4 (xs0, xs1, xs2, xs3) := by
  unfold outs0_C stepS sout0_C_0 sout0_C_1 sout0_C_2 sout0_C_3 negd
  dsimp only
  simp only [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  simp only [View.canon_unit_zero (S := S1x2048) r0_zero_off, View.readAt_eq_ld, harg2.read_unread, harg3.read_unread, harg4.read_unread, harg5.read_unread, harg6.read_unread,
    harg11.read_unread, harg12.read_unread, harg13.read_unread, harg14.read_unread,
    View.ld_unit_zero (S := S256x512) r0_zero_off, View.ld_unit_zero (S := S2048x512) r0_zero_off,
    View.ld_unit_zero (S := S1x2048) r0_zero_off, View.readCov_unit_zero (S := S1x2048) _ r0_zero_off]

-- The closing case copies the same four values out to the result windows.
theorem outC : (outs0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 = stepS i x0 x1 x2 x3 x4 (xs0, xs1, xs2, xs3) := by
  unfold outs0_C stepS out0_C_5 out0_C_6 out0_C_7 out0_C_8 negd
  dsimp only
  simp only [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3),
    View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  simp only [View.canon_unit_zero (S := S1x2048) r0_zero_off, View.readAt_eq_ld, harg2.read_unread, harg3.read_unread, harg4.read_unread, harg5.read_unread, harg6.read_unread,
    harg11.read_unread, harg12.read_unread, harg13.read_unread, harg14.read_unread,
    View.ld_unit_zero (S := S256x512) r0_zero_off, View.ld_unit_zero (S := S2048x512) r0_zero_off,
    View.ld_unit_zero (S := S1x2048) r0_zero_off, View.readCov_unit_zero (S := S1x2048) _ r0_zero_off]

end Last

end Cert.KernelIdeal.Val

end
-- ==== Proof.Val0.lean ====
import proofs.«425014_j10050223472719_3_alg».proof.Proof.FrKernelIdeal.R0Dat
import proofs.«425014_j10050223472719_3_alg».proof.Proof.R0Pieces
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Cert.Spec Cert.KernelIdeal Cert.KernelIdeal.Gen Cert.KernelIdeal.Fr

variable (V : (c : Dev nD) → (b : Ref sig .tc) → Buf (Elt Ideal) ((c : Thread nD τ).loc b))

theorem idx_facts0 : ∀ t : Fin cfg0.N,
    (grid0.coords t (0 : Fin 2)).val = t.val / 16 ∧ (grid0.coords t (1 : Fin 2)).val = t.val % 16
    ∧ win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val / 16
    ∧ win0_4.index t (0 : Fin 2) = 0 ∧ win0_4.index t (1 : Fin 2) = t.val / 16
    ∧ win0_5.index t (0 : Fin 2) = 0 ∧ win0_5.index t (1 : Fin 2) = t.val / 16
    ∧ win0_6.index t (0 : Fin 2) = 0 ∧ win0_6.index t (1 : Fin 2) = t.val / 16
    ∧ win0_7.index t (0 : Fin 2) = 0 ∧ win0_7.index t (1 : Fin 2) = t.val / 16
    ∧ win0_8.index t (0 : Fin 2) = 0 ∧ win0_8.index t (1 : Fin 2) = t.val / 16 :=
  (by decide +kernel : ∀ t : Fin grid0.N, _)

theorem iblk0_0_apply (c : Dev nD) (t : Fin cfg0.N) (r : Fin 256) (d : Fin 512) (k : S4096x512.Idx)
    (hk0 : (k 0).val = 256 * (t.val % 16) + r.val) (hk1 : (k 1).val = d.val) :
    (iblk0 V c 0 t : Vec Ideal S256x512 .f32) (ix2 r d) = (V c main_arg0 : S4096x512.Idx → EReal) k := by
  obtain ⟨g0, g1, f00, f01, f10, f11, f20, f21, f30, f31, f40, f41, f50, f51, f60, f61, f70, f71, f80, f81⟩ := idx_facts0 t
  unfold iblk0
  rw [View.read_apply]
  show (V c main_arg0 : S4096x512.Idx → EReal) _ = V c main_arg0 _
  congr 1
  funext a; apply Fin.ext
  match a with
  | ⟨0, _⟩ => show win0_0.index t (0 : Fin 2) * 256 + 1 * r.val = (k 0).val; rw [f00, hk0]; omega
  | ⟨1, _⟩ => show win0_0.index t (1 : Fin 2) * 512 + 1 * d.val = (k 1).val; rw [f01, hk1]; omega

theorem iblk0_1_apply (c : Dev nD) (t : Fin cfg0.N) (q : Fin 2048) (d : Fin 512) (k : S4096x512.Idx)
    (hk0 : (k 0).val = 2048 * (t.val / 16) + q.val) (hk1 : (k 1).val = d.val) :
    (iblk0 V c 1 t : Vec Ideal S2048x512 .bf16) (ix2 q d) = (V c main_v0 : S4096x512.Idx → EReal) k := by
  obtain ⟨g0, g1, f00, f01, f10, f11, f20, f21, f30, f31, f40, f41, f50, f51, f60, f61, f70, f71, f80, f81⟩ := idx_facts0 t
  unfold iblk0
  rw [View.read_apply]
  show (V c main_v0 : S4096x512.Idx → EReal) _ = V c main_v0 _
  congr 1
  funext a; apply Fin.ext
  match a with
  | ⟨0, _⟩ => show win0_1.index t (0 : Fin 2) * 2048 + 1 * q.val = (k 0).val; rw [f10, hk0]; omega
  | ⟨1, _⟩ => show win0_1.index t (1 : Fin 2) * 512 + 1 * d.val = (k 1).val; rw [f11, hk1]; omega

theorem iblk0_2_apply (c : Dev nD) (t : Fin cfg0.N) (q : Fin 2048) (d : Fin 512) (k : S4096x512.Idx)
    (hk0 : (k 0).val = 2048 * (t.val / 16) + q.val) (hk1 : (k 1).val = d.val) :
    (iblk0 V c 2 t : Vec Ideal S2048x512 .bf16) (ix2 q d) = (V c main_v1 : S4096x512.Idx → EReal) k := by
  obtain ⟨g0, g1, f00, f01, f10, f11, f20, f21, f30, f31, f40, f41, f50, f51, f60, f61, f70, f71, f80, f81⟩ := idx_facts0 t
  unfold iblk0
  rw [View.read_apply]
  show (V c main_v1 : S4096x512.Idx → EReal) _ = V c main_v1 _
  congr 1
  funext a; apply Fin.ext
  match a with
  | ⟨0, _⟩ => show win0_2.index t (0 : Fin 2) * 2048 + 1 * q.val = (k 0).val; rw [f20, hk0]; omega
  | ⟨1, _⟩ => show win0_2.index t (1 : Fin 2) * 512 + 1 * d.val = (k 1).val; rw [f21, hk1]; omega

theorem iblk0_3_apply (c : Dev nD) (t : Fin cfg0.N) (q : Fin 2048) (k : S1x4096.Idx)
    (hk0 : (k 0).val = 0) (hk1 : (k 1).val = 2048 * (t.val / 16) + q.val) :
    (iblk0 V c 3 t : Vec Ideal S1x2048 .f32) (ix2 0 q) = (V c main_v4 : S1x4096.Idx → EReal) k := by
  obtain ⟨g0, g1, f00, f01, f10, f11, f20, f21, f30, f31, f40, f41, f50, f51, f60, f61, f70, f71, f80, f81⟩ := idx_facts0 t
  unfold iblk0
  rw [View.read_apply]
  show (V c main_v4 : S1x4096.Idx → EReal) _ = V c main_v4 _
  congr 1
  funext a; apply Fin.ext
  match a with
  | ⟨0, _⟩ => show win0_3.index t (0 : Fin 2) * 1 + 1 * 0 = (k 0).val; rw [f30, hk0]
  | ⟨1, _⟩ => show win0_3.index t (1 : Fin 2) * 2048 + 1 * q.val = (k 1).val; rw [f31, hk1]; omega

theorem iblk0_4_apply (c : Dev nD) (t : Fin cfg0.N) (q : Fin 2048) (k : S1x4096.Idx)
    (hk0 : (k 0).val = 0) (hk1 : (k 1).val = 2048 * (t.val / 16) + q.val) :
    (iblk0 V c 4 t : Vec Ideal S1x2048 .f32) (ix2 0 q) = (V c main_v7 : S1x4096.Idx → EReal) k := by
  obtain ⟨g0, g1, f00, f01, f10, f11, f20, f21, f30, f31, f40, f41, f50, f51, f60, f61, f70, f71, f80, f81⟩ := idx_facts0 t
  unfold iblk0
  rw [View.read_apply]
  show (V c main_v7 : S1x4096.Idx → EReal) _ = V c main_v7 _
  congr 1
  funext a; apply Fin.ext
  match a with
  | ⟨0, _⟩ => show win0_4.index t (0 : Fin 2) * 1 + 1 * 0 = (k 0).val; rw [f40, hk0]
  | ⟨1, _⟩ => show win0_4.index t (1 : Fin 2) * 2048 + 1 * q.val = (k 1).val; rw [f41, hk1]; omega

abbrev stepAt (c : Dev nD) (t : Fin cfg0.N) (S : Scr) : Scr :=
  stepS (grid0.coords t) (iblk0 V c 0 t) (iblk0 V c 1 t) (iblk0 V c 2 t) (iblk0 V c 3 t) (iblk0 V c 4 t) S

theorem scratch_A (c : Dev nD) (t : Fin cfg0.N) (h0 : t.val % 16 = 0) :
    (outsAt0 V c t.val t.isLt).2 = stepAt V c t resetS := by
  rw [outsAt0_A V c t h0 (by omega)]
  exact scrA ..

theorem scratch_B (c : Dev nD) (t : Fin cfg0.N) (h0 : ¬t.val % 16 = 0) (h1 : ¬t.val % 16 = 15) :
    (outsAt0 V c t.val t.isLt).2
      = stepAt V c t (outsAt0 V c (t.val - 1) (Nat.lt_of_le_of_lt (Nat.sub_le _ _) t.isLt)).2 := by
  rw [outsAt0_B V c t h0 h1]
  exact scrB ..

theorem scratch_C (c : Dev nD) (t : Fin cfg0.N) (h0 : ¬t.val % 16 = 0) (h1 : t.val % 16 = 15) :
    (outsAt0 V c t.val t.isLt).2
      = stepAt V c t (outsAt0 V c (t.val - 1) (Nat.lt_of_le_of_lt (Nat.sub_le _ _) t.isLt)).2 := by
  rw [outsAt0_C V c t h0 h1]
  exact scrC ..

theorem result_C (c : Dev nD) (t : Fin cfg0.N) (h0 : ¬t.val % 16 = 0) (h1 : t.val % 16 = 15) :
    (outsAt0 V c t.val t.isLt).1
      = stepAt V c t (outsAt0 V c (t.val - 1) (Nat.lt_of_le_of_lt (Nat.sub_le _ _) t.isLt)).2 := by
  rw [outsAt0_C V c t h0 h1]
  exact outC ..

theorem mem_blk5 (t : Fin cfg0.N) (i : S1x4096.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v8_0).slice (win0_5.rect t)).set ↔ _
  rw [View.set_slice_whole, Rect.mem_set_unit]
  exact Iff.rfl

theorem cover5 (i : S1x4096.Idx) : ∃ t : Fin cfg0.N, (cfg0.win 5).flush t = true ∧ i ∈ ((cfg0.win 5).blk t).view.set := by
  have hi0 : (i 0).val < 1 := idx2_lt0 i
  have hi1 : (i 1).val < 4096 := idx2_lt1 i
  have hN : cfg0.N = 32 := N_0
  obtain ⟨t, ht⟩ : ∃ t : Fin cfg0.N, t.val = 16 * ((i 1).val / 2048) + 15 := ⟨⟨16 * ((i 1).val / 2048) + 15, by omega⟩, rfl⟩
  obtain ⟨g0, g1, f00, f01, f10, f11, f20, f21, f30, f31, f40, f41, f50, f51, f60, f61, f70, f71, f80, f81⟩ := idx_facts0 t
  refine ⟨t, (flush0_5 t).mpr (by omega), ?_⟩
  rw [mem_blk5]
  intro a
  match a with
  | ⟨0, _⟩ => show win0_5.index t (0 : Fin 2) * 1 ≤ (i 0).val ∧ (i 0).val < win0_5.index t (0 : Fin 2) * 1 + 1; rw [f50]; omega
  | ⟨1, _⟩ => show win0_5.index t (1 : Fin 2) * 2048 ≤ (i 1).val ∧ (i 1).val < win0_5.index t (1 : Fin 2) * 2048 + 2048; rw [f51, ht]; omega

theorem mem_blk6 (t : Fin cfg0.N) (i : S1x4096.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v8_1).slice (win0_6.rect t)).set ↔ _
  rw [View.set_slice_whole, Rect.mem_set_unit]
  exact Iff.rfl

theorem cover6 (i : S1x4096.Idx) : ∃ t : Fin cfg0.N, (cfg0.win 6).flush t = true ∧ i ∈ ((cfg0.win 6).blk t).view.set := by
  have hi0 : (i 0).val < 1 := idx2_lt0 i
  have hi1 : (i 1).val < 4096 := idx2_lt1 i
  have hN : cfg0.N = 32 := N_0
  obtain ⟨t, ht⟩ : ∃ t : Fin cfg0.N, t.val = 16 * ((i 1).val / 2048) + 15 := ⟨⟨16 * ((i 1).val / 2048) + 15, by omega⟩, rfl⟩
  obtain ⟨g0, g1, f00, f01, f10, f11, f20, f21, f30, f31, f40, f41, f50, f51, f60, f61, f70, f71, f80, f81⟩ := idx_facts0 t
  refine ⟨t, (flush0_6 t).mpr (by omega), ?_⟩
  rw [mem_blk6]
  intro a
  match a with
  | ⟨0, _⟩ => show win0_6.index t (0 : Fin 2) * 1 ≤ (i 0).val ∧ (i 0).val < win0_6.index t (0 : Fin 2) * 1 + 1; rw [f60]; omega
  | ⟨1, _⟩ => show win0_6.index t (1 : Fin 2) * 2048 ≤ (i 1).val ∧ (i 1).val < win0_6.index t (1 : Fin 2) * 2048 + 2048; rw [f61, ht]; omega

theorem mem_blk7 (t : Fin cfg0.N) (i : S1x4096.Idx) :
    i ∈ ((cfg0.win 7).blk t).view.set ↔ ∀ a : Fin 2, win0_7.index t a * S1x2048.size a ≤ (i a).val ∧ (i a).val < win0_7.index t a * S1x2048.size a + S1x2048.size a := by
  show i ∈ ((View.whole main_v8_2).slice (win0_7.rect t)).set ↔ _
  rw [View.set_slice_whole, Rect.mem_set_unit]
  exact Iff.rfl

theorem cover7 (i : S1x4096.Idx) : ∃ t : Fin cfg0.N, (cfg0.win 7).flush t = true ∧ i ∈ ((cfg0.win 7).blk t).view.set := by
  have hi0 : (i 0).val < 1 := idx2_lt0 i
  have hi1 : (i 1).val < 4096 := idx2_lt1 i
  have hN : cfg0.N = 32 := N_0
  obtain ⟨t, ht⟩ : ∃ t : Fin cfg0.N, t.val = 16 * ((i 1).val / 2048) + 15 := ⟨⟨16 * ((i 1).val / 2048) + 15, by omega⟩, rfl⟩
  obtain ⟨g0, g1, f00, f01, f10, f11, f20, f21, f30, f31, f40, f41, f50, f51, f60, f61, f70, f71, f80, f81⟩ := idx_facts0 t
  refine ⟨t, (flush0_7 t).mpr (by omega), ?_⟩
  rw [mem_blk7]
  intro a
  match a with
  | ⟨0, _⟩ => show win0_7.index t (0 : Fin 2) * 1 ≤ (i 0).val ∧ (i 0).val < win0_7.index t (0 : Fin 2) * 1 + 1; rw [f70]; omega
  | ⟨1, _⟩ => show win0_7.index t (1 : Fin 2) * 2048 ≤ (i 1).val ∧ (i 1).val < win0_7.index t (1 : Fin 2) * 2048 + 2048; rw [f71, ht]; omega

theorem mem_blk8 (t : Fin cfg0.N) (i : S1x4096.Idx) :
    i ∈ ((cfg0.win 8).blk t).view.set ↔ ∀ a : Fin 2, win0_8.index t a * S1x2048.size a ≤ (i a).val ∧ (i a).val < win0_8.index t a * S1x2048.size a + S1x2048.size a := by
  show i ∈ ((View.whole main_v8_3).slice (win0_8.rect t)).set ↔ _
  rw [View.set_slice_whole, Rect.mem_set_unit]
  exact Iff.rfl

theorem cover8 (i : S1x4096.Idx) : ∃ t : Fin cfg0.N, (cfg0.win 8).flush t = true ∧ i ∈ ((cfg0.win 8).blk t).view.set := by
  have hi0 : (i 0).val < 1 := idx2_lt0 i
  have hi1 : (i 1).val < 4096 := idx2_lt1 i
  have hN : cfg0.N = 32 := N_0
  obtain ⟨t, ht⟩ : ∃ t : Fin cfg0.N, t.val = 16 * ((i 1).val / 2048) + 15 := ⟨⟨16 * ((i 1).val / 2048) + 15, by omega⟩, rfl⟩
  obtain ⟨g0, g1, f00, f01, f10, f11, f20, f21, f30, f31, f40, f41, f50, f51, f60, f61, f70, f71, f80, f81⟩ := idx_facts0 t
  refine ⟨t, (flush0_8 t).mpr (by omega), ?_⟩
  rw [mem_blk8]
  intro a
  match a with
  | ⟨0, _⟩ => show win0_8.index t (0 : Fin 2) * 1 ≤ (i 0).val ∧ (i 0).val < win0_8.index t (0 : Fin 2) * 1 + 1; rw [f80]; omega
  | ⟨1, _⟩ => show win0_8.index t (1 : Fin 2) * 2048 ≤ (i 1).val ∧ (i 1).val < win0_8.index t (1 : Fin 2) * 2048 + 2048; rw [f81, ht]; omega

abbrev G5 (x y : Mat) : S1x4096.Idx → EReal := fun j => cmaxKp x y ⟨(j 1).val, idx2_lt1 j⟩
abbrev G6 (x : Mat) : S1x4096.Idx → EReal := fun j => cmaxKn x ⟨(j 1).val, idx2_lt1 j⟩
abbrev G7 (x y : Mat) : S1x4096.Idx → EReal := fun j => csumKp x y ⟨(j 1).val, idx2_lt1 j⟩
abbrev G8 (x : Mat) : S1x4096.Idx → EReal := fun j => csumKn x ⟨(j 1).val, idx2_lt1 j⟩

section
variable (c : Dev nD) (x y : Mat)
  (hx0 : ∀ i d, (V c main_arg0 : S4096x512.Idx → EReal) (ix2 i d) = x i d)
  (hx1 : ∀ i d, (V c main_v0 : S4096x512.Idx → EReal) (ix2 i d) = x i d)
  (hy1 : ∀ i d, (V c main_v1 : S4096x512.Idx → EReal) (ix2 i d) = y i d)
  (hsqx : ∀ k, (V c main_v4 : S1x4096.Idx → EReal) (ix2 0 k) = sqn x k)
  (hsqy : ∀ k, (V c main_v7 : S1x4096.Idx → EReal) (ix2 0 k) = sqn y k)
include hx0 hx1 hy1 hsqx hsqy

theorem blocksAt (t : Fin cfg0.N) :
    BlocksAt x y t.val (by have hN : cfg0.N = 32 := N_0; omega) (grid0.coords t)
      (iblk0 V c 0 t) (iblk0 V c 1 t) (iblk0 V c 2 t) (iblk0 V c 3 t) (iblk0 V c 4 t) := by
  have hN : cfg0.N = 32 := N_0
  obtain ⟨g0, g1, f00, f01, f10, f11, f20, f21, f30, f31, f40, f41, f50, f51, f60, f61, f70, f71, f80, f81⟩ := idx_facts0 t
  exact
    { hi0 := g0
      hi1 := g1
      hx0 := fun r d => (iblk0_0_apply V c t r d (ix2 (rowOf ⟨t.val % 16, Nat.mod_lt _ (by decide)⟩ r) d) rfl rfl).trans (hx0 _ _)
      hx1 := fun q d => (iblk0_1_apply V c t q d (ix2 (colOf ⟨t.val / 16, by omega⟩ q) d) rfl rfl).trans (hx1 _ _)
      hx2 := fun q d => (iblk0_2_apply V c t q d (ix2 (colOf ⟨t.val / 16, by omega⟩ q) d) rfl rfl).trans (hy1 _ _)
      hx3 := fun q => (iblk0_3_apply V c t q (ix2 0 (colOf ⟨t.val / 16, by omega⟩ q)) rfl rfl).trans (hsqx _)
      hx4 := fun q => (iblk0_4_apply V c t q (ix2 0 (colOf ⟨t.val / 16, by omega⟩ q)) rfl rfl).trans (hsqy _) }

theorem tracks_all (n : ℕ) (hn : n < cfg0.N) :
    Tracks x y n (by have hN : cfg0.N = 32 := N_0; omega) (outsAt0 V c n hn).2 := by
  have hN : cfg0.N = 32 := N_0
  induction n with
  | zero =>
    have e : (outsAt0 V c 0 hn).2 = stepAt V c ⟨0, hn⟩ resetS := scratch_A V c ⟨0, hn⟩ (Nat.zero_mod 16)
    rw [e]
    exact tracks_first x y 0 _ (Nat.zero_mod 16) _ _ _ _ _ _ (blocksAt V c x y hx0 hx1 hy1 hsqx hsqy ⟨0, hn⟩)
  | succ n ih =>
    have ih' := ih (Nat.lt_of_succ_lt hn)
    by_cases h0 : (n + 1) % 16 = 0
    · have e : (outsAt0 V c (n + 1) hn).2 = stepAt V c ⟨n + 1, hn⟩ resetS := scratch_A V c ⟨n + 1, hn⟩ h0
      rw [e]
      exact tracks_first x y (n + 1) _ h0 _ _ _ _ _ _ (blocksAt V c x y hx0 hx1 hy1 hsqx hsqy ⟨n + 1, hn⟩)
    · have e : (outsAt0 V c (n + 1) hn).2 = stepAt V c ⟨n + 1, hn⟩ (outsAt0 V c n (Nat.lt_of_succ_lt hn)).2 := by
        by_cases h1 : (n + 1) % 16 = 15
        · exact scratch_C V c ⟨n + 1, hn⟩ h0 h1
        · exact scratch_B V c ⟨n + 1, hn⟩ h0 h1
      rw [e]
      exact tracks_next x y n _ h0 _ ih' _ _ _ _ _ _ (blocksAt V c x y hx0 hx1 hy1 hsqx hsqy ⟨n + 1, hn⟩)

theorem results_last (t : Fin cfg0.N) (h15 : t.val % 16 = 15) (k : Fin 2048) :
    (outsAt0 V c t.val t.isLt).1.1 (ix2 0 k) = cmaxKp x y (colOf ⟨t.val / 16, by have hN : cfg0.N = 32 := N_0; omega⟩ k)
    ∧ (outsAt0 V c t.val t.isLt).1.2.1 (ix2 0 k) = cmaxKn x (colOf ⟨t.val / 16, by have hN : cfg0.N = 32 := N_0; omega⟩ k)
    ∧ (outsAt0 V c t.val t.isLt).1.2.2.1 (ix2 0 k) = csumKp x y (colOf ⟨t.val / 16, by have hN : cfg0.N = 32 := N_0; omega⟩ k)
    ∧ (outsAt0 V c t.val t.isLt).1.2.2.2 (ix2 0 k) = csumKn x (colOf ⟨t.val / 16, by have hN : cfg0.N = 32 := N_0; omega⟩ k) := by
  have hN : cfg0.N = 32 := N_0
  have e1 : (outsAt0 V c t.val t.isLt).1 = (outsAt0 V c t.val t.isLt).2 :=
    (result_C V c t (by omega) h15).trans (scratch_C V c t (by omega) h15).symm
  rw [e1]
  exact tracks_last x y t.val _ h15 _ (tracks_all V c x y hx0 hx1 hy1 hsqx hsqy t.val t.isLt) k

theorem flushed5_eq (t : Fin cfg0.N) (hf : (cfg0.win 5).flush t = true) :
    (dat0 V c).flushed 5 t = ((cfg0.win 5).blk t).view.read (Elt Ideal) (G5 x y) := by
  have h15 : t.val % 16 = 15 := (flush0_5 t).mp hf
  have hN : cfg0.N = 32 := N_0
  obtain ⟨g0, g1, f00, f01, f10, f11, f20, f21, f30, f31, f40, f41, f50, f51, f60, f61, f70, f71, f80, f81⟩ := idx_facts0 t
  show (cfg0.win 5).cut (grid0.coords t) ((dat0 V c).after 5 t) = _
  rw [after0_5]
  funext (j : S1x2048.Idx)
  obtain ⟨r, k, rfl⟩ : ∃ (r : Fin 1) (k : Fin 2048), j = ix2 r k := ⟨j 0, j 1, eq_ix2 j⟩
  obtain rfl : r = 0 := Subsingleton.elim _ _
  show (outsAt0 V c t.val t.isLt).1.1 (ix2 0 k) = G5 x y (((cfg0.win 5).blk t).view.emb (ix2 0 k))
  rw [(results_last V c x y hx0 hx1 hy1 hsqx hsqy t h15 k).1]
  have e1 : ((((cfg0.win 5).blk t).view.emb (ix2 (0 : Fin 1) k)) 1).val = 2048 * (t.val / 16) + k.val := by
    show win0_5.index t (1 : Fin 2) * 2048 + 1 * k.val = _; rw [f51]; omega
  show cmaxKp x y (colOf ⟨t.val / 16, by omega⟩ k) = cmaxKp x y ⟨_, _⟩
  congr 1; apply Fin.ext
  exact e1.symm

theorem final5 : (dat0 V c).arrAt 5 cfg0.N = G5 x y :=
  (dat0 V c).arrAt_eq_of_cover 5 (G5 x y) (flushed5_eq V c x y hx0 hx1 hy1 hsqx hsqy) cover5

theorem flushed6_eq (t : Fin cfg0.N) (hf : (cfg0.win 6).flush t = true) :
    (dat0 V c).flushed 6 t = ((cfg0.win 6).blk t).view.read (Elt Ideal) (G6 x) := by
  have h15 : t.val % 16 = 15 := (flush0_6 t).mp hf
  have hN : cfg0.N = 32 := N_0
  obtain ⟨g0, g1, f00, f01, f10, f11, f20, f21, f30, f31, f40, f41, f50, f51, f60, f61, f70, f71, f80, f81⟩ := idx_facts0 t
  show (cfg0.win 6).cut (grid0.coords t) ((dat0 V c).after 6 t) = _
  rw [after0_6]
  funext (j : S1x2048.Idx)
  obtain ⟨r, k, rfl⟩ : ∃ (r : Fin 1) (k : Fin 2048), j = ix2 r k := ⟨j 0, j 1, eq_ix2 j⟩
  obtain rfl : r = 0 := Subsingleton.elim _ _
  show (outsAt0 V c t.val t.isLt).1.2.1 (ix2 0 k) = G6 x (((cfg0.win 6).blk t).view.emb (ix2 0 k))
  rw [(results_last V c x y hx0 hx1 hy1 hsqx hsqy t h15 k).2.1]
  have e1 : ((((cfg0.win 6).blk t).view.emb (ix2 (0 : Fin 1) k)) 1).val = 2048 * (t.val / 16) + k.val := by
    show win0_6.index t (1 : Fin 2) * 2048 + 1 * k.val = _; rw [f61]; omega
  show cmaxKn x (colOf ⟨t.val / 16, by omega⟩ k) = cmaxKn x ⟨_, _⟩
  congr 1; apply Fin.ext
  exact e1.symm

theorem final6 : (dat0 V c).arrAt 6 cfg0.N = G6 x :=
  (dat0 V c).arrAt_eq_of_cover 6 (G6 x) (flushed6_eq V c x y hx0 hx1 hy1 hsqx hsqy) cover6

theorem flushed7_eq (t : Fin cfg0.N) (hf : (cfg0.win 7).flush t = true) :
    (dat0 V c).flushed 7 t = ((cfg0.win 7).blk t).view.read (Elt Ideal) (G7 x y) := by
  have h15 : t.val % 16 = 15 := (flush0_7 t).mp hf
  have hN : cfg0.N = 32 := N_0
  obtain ⟨g0, g1, f00, f01, f10, f11, f20, f21, f30, f31, f40, f41, f50, f51, f60, f61, f70, f71, f80, f81⟩ := idx_facts0 t
  show (cfg0.win 7).cut (grid0.coords t) ((dat0 V c).after 7 t) = _
  rw [after0_7]
  funext (j : S1x2048.Idx)
  obtain ⟨r, k, rfl⟩ : ∃ (r : Fin 1) (k : Fin 2048), j = ix2 r k := ⟨j 0, j 1, eq_ix2 j⟩
  obtain rfl : r = 0 := Subsingleton.elim _ _
  show (outsAt0 V c t.val t.isLt).1.2.2.1 (ix2 0 k) = G7 x y (((cfg0.win 7).blk t).view.emb (ix2 0 k))
  rw [(results_last V c x y hx0 hx1 hy1 hsqx hsqy t h15 k).2.2.1]
  have e1 : ((((cfg0.win 7).blk t).view.emb (ix2 (0 : Fin 1) k)) 1).val = 2048 * (t.val / 16) + k.val := by
    show win0_7.index t (1 : Fin 2) * 2048 + 1 * k.val = _; rw [f71]; omega
  show csumKp x y (colOf ⟨t.val / 16, by omega⟩ k) = csumKp x y ⟨_, _⟩
  congr 1; apply Fin.ext
  exact e1.symm

theorem final7 : (dat0 V c).arrAt 7 cfg0.N = G7 x y :=
  (dat0 V c).arrAt_eq_of_cover 7 (G7 x y) (flushed7_eq V c x y hx0 hx1 hy1 hsqx hsqy) cover7

theorem flushed8_eq (t : Fin cfg0.N) (hf : (cfg0.win 8).flush t = true) :
    (dat0 V c).flushed 8 t = ((cfg0.win 8).blk t).view.read (Elt Ideal) (G8 x) := by
  have h15 : t.val % 16 = 15 := (flush0_8 t).mp hf
  have hN : cfg0.N = 32 := N_0
  obtain ⟨g0, g1, f00, f01, f10, f11, f20, f21, f30, f31, f40, f41, f50, f51, f60, f61, f70, f71, f80, f81⟩ := idx_facts0 t
  show (cfg0.win 8).cut (grid0.coords t) ((dat0 V c).after 8 t) = _
  rw [after0_8]
  funext (j : S1x2048.Idx)
  obtain ⟨r, k, rfl⟩ : ∃ (r : Fin 1) (k : Fin 2048), j = ix2 r k := ⟨j 0, j 1, eq_ix2 j⟩
  obtain rfl : r = 0 := Subsingleton.elim _ _
  show (outsAt0 V c t.val t.isLt).1.2.2.2 (ix2 0 k) = G8 x (((cfg0.win 8).blk t).view.emb (ix2 0 k))
  rw [(results_last V c x y hx0 hx1 hy1 hsqx hsqy t h15 k).2.2.2]
  have e1 : ((((cfg0.win 8).blk t).view.emb (ix2 (0 : Fin 1) k)) 1).val = 2048 * (t.val / 16) + k.val := by
    show win0_8.index t (1 : Fin 2) * 2048 + 1 * k.val = _; rw [f81]; omega
  show csumKn x (colOf ⟨t.val / 16, by omega⟩ k) = csumKn x ⟨_, _⟩
  congr 1; apply Fin.ext
  exact e1.symm

theorem final8 : (dat0 V c).arrAt 8 cfg0.N = G8 x :=
  (dat0 V c).arrAt_eq_of_cover 8 (G8 x) (flushed8_eq V c x y hx0 hx1 hy1 hsqx hsqy) cover8

theorem arr5 (k : Fin 4096) : ((dat0 V c).arrAt 5 cfg0.N : S1x4096.Idx → EReal) (ix2 0 k) = cmaxKp x y k := by
  rw [final5 V c x y hx0 hx1 hy1 hsqx hsqy]
theorem arr6 (k : Fin 4096) : ((dat0 V c).arrAt 6 cfg0.N : S1x4096.Idx → EReal) (ix2 0 k) = cmaxKn x k := by
  rw [final6 V c x y hx0 hx1 hy1 hsqx hsqy]
theorem arr7 (k : Fin 4096) : ((dat0 V c).arrAt 7 cfg0.N : S1x4096.Idx → EReal) (ix2 0 k) = csumKp x y k := by
  rw [final7 V c x y hx0 hx1 hy1 hsqx hsqy]
theorem arr8 (k : Fin 4096) : ((dat0 V c).arrAt 8 cfg0.N : S1x4096.Idx → EReal) (ix2 0 k) = csumKn x k := by
  rw [final8 V c x y hx0 hx1 hy1 hsqx hsqy]
end

end Cert.KernelIdeal.Val

end
-- ==== Proof.PayVal1.lean ====
import proofs.«425014_j10050223472719_3_alg».proof.Proof.Gen.KernelIdeal.Skeleton
import proofs.«425014_j10050223472719_3_alg».proof.Proof.SpecIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.Spec Cert.KernelIdeal Cert.KernelIdeal.Gen

def pay1 {F : FTy → Type} [FloatOps F] (i : grid1.Coords) (x0 : Vec F S256x512 .f32) (x1 x2 : Vec F S4096x512 .bf16)
    (x3 x4 x5 x6 x7 x8 : Vec F S1x4096 .f32) : FVec F S256x512 .f32 :=
  k1_pay1 (k1_pay3 x1) (k1_pay4 x2)
    (k1_pay8 (Scalar.muli (BitVec.ofNat 32 (i 0).val) 256#32) (k1_pay7 x0 x1 x3))
    (k1_pay9 (Scalar.muli (BitVec.ofNat 32 (i 0).val) 256#32) (k1_pay6 x0 x2 x4) (k1_pay7 x0 x1 x3))
    (k1_pay10 (Scalar.muli (BitVec.ofNat 32 (i 0).val) 256#32) (k1_pay6 x0 x2 x4) (k1_pay7 x0 x1 x3))
    (k1_pay11 x7)
    (k1_pay12 (Scalar.muli (BitVec.ofNat 32 (i 0).val) 256#32) (k1_pay6 x0 x2 x4) (k1_pay7 x0 x1 x3) x5)
    x6 x8

namespace K1

section Layout
variable {α : Type}

theorem bcCol_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem scCol_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem trT_apply {a b : ℕ} (perm : List (Fin 2)) (x : (⟨2, ![a, b]⟩ : Shape).Idx → α)
    (h : (⟨2, ![a, b]⟩ : Shape).Transposes perm ⟨2, ![b, a]⟩) (hp : perm = [1, 0]) (j : Fin b) (i : Fin a) :
    transpose ⟨2, ![b, a]⟩ perm x h (ix2 j i) = x (ix2 i j) := by
  subst hp; exact transpose_ix2_apply x h j i

end Layout

theorem rowSum_apply {a b : ℕ} (axes : List (Fin 2)) (src : FVec Ideal ⟨2, ![a, b]⟩ .f32)
    (h : (⟨2, ![a, b]⟩ : Shape).Reduces axes ⟨1, ![a]⟩)
    (hφ : FTy.f32 = FTy.f32 ∨ FTy.f32 = FTy.bf16) (hacc : (0x00000000#32 : BitVec 32) = 0x00000000#32)
    (hax : axes = [1]) (p : Fin a) :
    multiReduction .add axes ⟨1, ![a]⟩ src 0x00000000#32 h hφ hacc (ix1 p) = ∑ k : Fin b, src (ix2 p k) := by
  subst hax
  refine (Ideal.multiReduction_add_single src _ h hφ hacc (ix1 p)).trans ?_
  refine Finset.sum_congr rfl fun k _ => congrArg src (funext fun ax => Fin.ext ?_)
  match ax with
  | ⟨0, _⟩ => rfl
  | ⟨1, _⟩ => rfl

theorem negInf_eq_bot : Ideal.ofBits .f32 0xFF800000#32 = (⊥ : EReal) := by
  simp [Ideal.ofBits, Ideal.ieee]

theorem rowMax_apply {a b : ℕ} (axes : List (Fin 2)) (src : FVec Ideal ⟨2, ![a, b]⟩ .f32)
    (h : (⟨2, ![a, b]⟩ : Shape).Reduces axes ⟨1, ![a]⟩)
    (hφ : FTy.f32 = FTy.f32 ∨ FTy.f32 = FTy.bf16) (hacc : (0xFF800000#32 : BitVec 32) = 0xFF800000#32)
    (hax : axes = [1]) (p : Fin a) :
    multiReduction .maximumf axes ⟨1, ![a]⟩ src 0xFF800000#32 h hφ hacc (ix1 p) = supF fun k : Fin b => src (ix2 p k) := by
  subst hax
  refine (Ideal.multiReduction_maximumf_single src _ h hφ hacc (ix1 p)).trans ?_
  have hb : FloatOps.ofBits (F := Ideal) .f32 0xFF800000#32 = (⊥ : EReal) := negInf_eq_bot
  have hf : (src ∘ h.lift (ix1 p)) = fun k : Fin b => src (ix2 p k) := funext fun k =>
    congrArg src (funext fun ax => Fin.ext (by
      match ax with
      | ⟨0, _⟩ => rfl
      | ⟨1, _⟩ => rfl))
  unfold supF
  rw [hb, hf]
  rfl

end K1

namespace K1

theorem lhsA_0 (j : S256x4096.Idx) (q : dot_S256x512_S512x4096_S256x4096_1_0_0_1_n_n.contr.Idx) :
    (dot_S256x512_S512x4096_S256x4096_1_0_0_1_n_n.lhsIdx j q 0).val = (j 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhsA_1 (j : S256x4096.Idx) (q : dot_S256x512_S512x4096_S256x4096_1_0_0_1_n_n.contr.Idx) :
    (dot_S256x512_S512x4096_S256x4096_1_0_0_1_n_n.lhsIdx j q 1).val = (q ⟨0, by decide⟩).val :=
  dot_S256x512_S512x4096_S256x4096_1_0_0_1_n_n.lhsIdx_val_of_single rfl j q
theorem rhsA_0 (j : S256x4096.Idx) (q : dot_S256x512_S512x4096_S256x4096_1_0_0_1_n_n.contr.Idx) :
    (dot_S256x512_S512x4096_S256x4096_1_0_0_1_n_n.rhsIdx j q 0).val = (q ⟨0, by decide⟩).val :=
  dot_S256x512_S512x4096_S256x4096_1_0_0_1_n_n.rhsIdx_val_of_single rfl j q
theorem rhsA_1 (j : S256x4096.Idx) (q : dot_S256x512_S512x4096_S256x4096_1_0_0_1_n_n.contr.Idx) :
    (dot_S256x512_S512x4096_S256x4096_1_0_0_1_n_n.rhsIdx j q 1).val = (j 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

theorem mmA_apply (l : FVec Ideal S256x512 .bf16) (rr : FVec Ideal S512x4096 .bf16) (p : Fin 256) (c : Fin 4096) :
    matmul dot_S256x512_S512x4096_S256x4096_1_0_0_1_n_n none l rr (constant (F := Ideal) S256x4096 .f32 0x00000000#32) (ix2 p c)
      = ∑ k : Fin 512, l (ix2 p k) * rr (ix2 k c) := by
  simp only [matmul]
  rw [Ideal.matmul_constant_zero_apply, ← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p c) ((contrEquiv1 dot_S256x512_S512x4096_S256x4096_1_0_0_1_n_n 512 rfl rfl).symm k) = ix2 p k := funext fun a => Fin.ext (by
    match a with
    | ⟨0, _⟩ => exact lhsA_0 _ _
    | ⟨1, _⟩ => exact (lhsA_1 _ _).trans hk)
  have er : dot_S256x512_S512x4096_S256x4096_1_0_0_1_n_n.rhsIdx (ix2 p c) ((contrEquiv1 dot_S256x512_S512x4096_S256x4096_1_0_0_1_n_n 512 rfl rfl).symm k) = ix2 k c := funext fun a => Fin.ext (by
    match a with
    | ⟨0, _⟩ => exact (rhsA_0 _ _).trans hk
    | ⟨1, _⟩ => exact rhsA_1 _ _)
  rw [el, er]

theorem lhsB_0 (j : S256x512.Idx) (q : dot_S256x4096_S4096x512_S256x512_1_0_0_1_n_n.contr.Idx) :
    (dot_S256x4096_S4096x512_S256x512_1_0_0_1_n_n.lhsIdx j q 0).val = (j 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhsB_1 (j : S256x512.Idx) (q : dot_S256x4096_S4096x512_S256x512_1_0_0_1_n_n.contr.Idx) :
    (dot_S256x4096_S4096x512_S256x512_1_0_0_1_n_n.lhsIdx j q 1).val = (q ⟨0, by decide⟩).val :=
  dot_S256x4096_S4096x512_S256x512_1_0_0_1_n_n.lhsIdx_val_of_single rfl j q
theorem rhsB_0 (j : S256x512.Idx) (q : dot_S256x4096_S4096x512_S256x512_1_0_0_1_n_n.contr.Idx) :
    (dot_S256x4096_S4096x512_S256x512_1_0_0_1_n_n.rhsIdx j q 0).val = (q ⟨0, by decide⟩).val :=
  dot_S256x4096_S4096x512_S256x512_1_0_0_1_n_n.rhsIdx_val_of_single rfl j q
theorem rhsB_1 (j : S256x512.Idx) (q : dot_S256x4096_S4096x512_S256x512_1_0_0_1_n_n.contr.Idx) :
    (dot_S256x4096_S4096x512_S256x512_1_0_0_1_n_n.rhsIdx j q 1).val = (j 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

theorem mmB_apply (l : FVec Ideal S256x4096 .bf16) (rr : FVec Ideal S4096x512 .bf16) (p : Fin 256) (c : Fin 512) :
    matmul dot_S256x4096_S4096x512_S256x512_1_0_0_1_n_n none l rr (constant (F := Ideal) S256x512 .f32 0x00000000#32) (ix2 p c)
      = ∑ k : Fin 4096, l (ix2 p k) * rr (ix2 k c) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 p c) ((contrEquiv1 dot_S256x4096_S4096x512_S256x512_1_0_0_1_n_n 4096 rfl rfl).symm k) = ix2 p k := funext fun a => Fin.ext (by
    match a with
    | ⟨0, _⟩ => exact lhsB_0 _ _
    | ⟨1, _⟩ => exact (lhsB_1 _ _).trans hk)
  have er : dot_S256x4096_S4096x512_S256x512_1_0_0_1_n_n.rhsIdx (ix2 p c) ((contrEquiv1 dot_S256x4096_S4096x512_S256x512_1_0_0_1_n_n 4096 rfl rfl).symm k) = ix2 k c := funext fun a => Fin.ext (by
    match a with
    | ⟨0, _⟩ => exact (rhsB_0 _ _).trans hk
    | ⟨1, _⟩ => exact rhsB_1 _ _)
  rw [el, er]

end K1

namespace K1

section Pointwise
variable {s : Shape} {φ : FTy}
theorem sqrt_apply (a : FVec Ideal s φ) (i : s.Idx) : sqrt a i = Ideal.sqrt (a i) := rfl
theorem rsqrt_apply (a : FVec Ideal s φ) (i : s.Idx) : rsqrt a i = Ideal.rsqrt (a i) := rfl
theorem exp_apply (a : FVec Ideal s φ) (i : s.Idx) : exp a i = Ideal.exp (a i) := rfl
theorem cmpi_apply {w : ℕ} (p : CmpIPredicate) (a c : IVec s w) (i : s.Idx) : cmpi p a c i = IntOp.cmpi p (a i) (c i) := rfl
theorem addi_apply {w : ℕ} (a c : IVec s w) (i : s.Idx) : addi a c i = IntOp.addi (a i) (c i) := rfl
end Pointwise

theorem iotaRow_apply (dims : List (Fin 2)) (h : S256x1.Iotas .tc 32 dims) (hd : dims = [0]) (r : Fin 256) (u : Fin 1) :
    iota .tc S256x1 32 dims h (ix2 r u) = BitVec.ofNat 32 r.val := by
  subst hd; exact iota_single_apply .tc S256x1 32 0 h (ix2 r u)

theorem iotaCol_apply (dims : List (Fin 2)) (h : S1x4096.Iotas .tc 32 dims) (hd : dims = [1]) (u : Fin 1) (k : Fin 4096) :
    iota .tc S1x4096 32 dims h (ix2 u k) = BitVec.ofNat 32 k.val := by
  subst hd; exact iota_single_apply .tc S1x4096 32 1 h (ix2 u k)

theorem pay3_eq (v : Vec Ideal S4096x512 .bf16) : k1_pay3 (F := Ideal) v = v := by
  unfold k1_pay3; exact shapeCast_self _ _
theorem pay4_eq (v : Vec Ideal S4096x512 .bf16) : k1_pay4 (F := Ideal) v = v := by
  unfold k1_pay4; exact shapeCast_self _ _

theorem pay5_apply (xb : Vec Ideal S256x512 .f32) (r : Fin 256) (u : Fin 1) :
    k1_pay5 (F := Ideal) xb (ix2 r u) = ∑ d : Fin 512, xb (ix2 r d) * xb (ix2 r d) := by
  unfold k1_pay5
  simp only [scCol_apply, rowSum_apply, mulf_apply]

theorem pay6_apply (xb : Vec Ideal S256x512 .f32) (yF : Vec Ideal S4096x512 .bf16) (sqy : Vec Ideal S1x4096 .f32)
    (r : Fin 256) (k : Fin 4096) :
    k1_pay6 (F := Ideal) xb yF sqy (ix2 r k)
      = Ideal.div (0 - Ideal.sqrt (max (((∑ d : Fin 512, xb (ix2 r d) * xb (ix2 r d)) + sqy (ix2 0 k))
          - Ideal.ofBits .f32 0x40000000#32 * ∑ d : Fin 512, xb (ix2 r d) * yF (ix2 k d)) (Ideal.ofBits .f32 0x2B8CBCCC#32)))
          (Ideal.ofBits .f32 0x3DCCCCCD#32) := by
  unfold k1_pay6
  simp only [k1_pay2, pay4_eq, pay5_apply, divf_apply, subf_apply, addf_apply, mulf_apply, maximumf_apply, broadcast_apply,
    sqrt_apply, bcCol_apply, broadcastTo_1b_ab_apply, shapeCast_self, mmA_apply, trT_apply, truncf_apply,
    Ideal.ofBits_def, Ideal.ofBits_zero_f32]

theorem pay7_apply (xb : Vec Ideal S256x512 .f32) (xF : Vec Ideal S4096x512 .bf16) (sqx : Vec Ideal S1x4096 .f32)
    (r : Fin 256) (k : Fin 4096) :
    k1_pay7 (F := Ideal) xb xF sqx (ix2 r k)
      = max (((∑ d : Fin 512, xb (ix2 r d) * xb (ix2 r d)) + sqx (ix2 0 k))
          - Ideal.ofBits .f32 0x40000000#32 * ∑ d : Fin 512, xb (ix2 r d) * xF (ix2 k d)) (Ideal.ofBits .f32 0x2B8CBCCC#32) := by
  unfold k1_pay7
  simp only [k1_pay2, pay3_eq, pay5_apply, subf_apply, addf_apply, mulf_apply, maximumf_apply, broadcast_apply,
    bcCol_apply, broadcastTo_1b_ab_apply, shapeCast_self, mmA_apply, trT_apply, truncf_apply,
    Ideal.ofBits_def]

end K1

namespace K1

theorem pay8_apply (v13 : BitVec 32) (v38 : FVec Ideal S256x4096 .f32) (r : Fin 256) (k : Fin 4096) :
    k1_pay8 (F := Ideal) v13 v38 (ix2 r k)
      = Ideal.div (0 - (Ideal.sqrt (v38 (ix2 r k)) + Ideal.ofBits .f32 0x49742400#32
          * FloatOps.sitofp (F := Ideal) .f32 ((IntOp.cmpi .eq (IntOp.addi v13 (BitVec.ofNat 32 r.val))
              (IntOp.addi 0#32 (BitVec.ofNat 32 k.val))).setWidth 32)))
          (Ideal.ofBits .f32 0x3DCCCCCD#32) := by
  unfold k1_pay8
  simp only [divf_apply, subf_apply, addf_apply, mulf_apply, broadcast_apply, sqrt_apply, sitofp_apply, extui_apply,
    cmpi_apply, addi_apply, bcCol_apply, broadcastTo_1b_ab_apply, iotaRow_apply, iotaCol_apply, Ideal.ofBits_def,
    Ideal.ofBits_zero_f32]

theorem pay9_apply (v13 : BitVec 32) (v28 v38 : FVec Ideal S256x4096 .f32) (r : Fin 256) (u : Fin 1) :
    k1_pay9 (F := Ideal) v13 v28 v38 (ix2 r u)
      = max (supF fun k : Fin 4096 => v28 (ix2 r k)) (supF fun k : Fin 4096 => k1_pay8 (F := Ideal) v13 v38 (ix2 r k)) := by
  unfold k1_pay9
  try dsimp only
  rw [maximumf_apply, scCol_apply, scCol_apply, rowMax_apply _ _ _ _ _ rfl, rowMax_apply _ _ _ _ _ rfl]

theorem pay10_apply (v13 : BitVec 32) (v28 v38 : FVec Ideal S256x4096 .f32) (r : Fin 256) (u : Fin 1) :
    k1_pay10 (F := Ideal) v13 v28 v38 (ix2 r u)
      = Ideal.rsqrt ((∑ k : Fin 4096, Ideal.exp (v28 (ix2 r k) - k1_pay9 (F := Ideal) v13 v28 v38 (ix2 r (0 : Fin 1))))
          + ∑ k : Fin 4096, Ideal.exp (k1_pay8 (F := Ideal) v13 v38 (ix2 r k) - k1_pay9 (F := Ideal) v13 v28 v38 (ix2 r (0 : Fin 1)))) := by
  unfold k1_pay10
  try dsimp only
  rw [rsqrt_apply, addf_apply, scCol_apply, scCol_apply, rowSum_apply _ _ _ _ _ rfl, rowSum_apply _ _ _ _ _ rfl]
  refine congrArg Ideal.rsqrt (congrArg₂ (· + ·) (Finset.sum_congr rfl fun k _ => ?_) (Finset.sum_congr rfl fun k _ => ?_))
  · rw [exp_apply, subf_apply, bcCol_apply]
  · rw [exp_apply, subf_apply, bcCol_apply]

theorem pay11_apply (v77 : Vec Ideal S1x4096 .f32) (u : Fin 1) (k : Fin 4096) :
    k1_pay11 (F := Ideal) v77 (ix2 u k) = Ideal.rsqrt (v77 (ix2 u k)) := by
  unfold k1_pay11
  try dsimp only
  rw [rsqrt_apply, shapeCast_self]

theorem pay12_apply (v13 : BitVec 32) (v28 v38 : FVec Ideal S256x4096 .f32) (v75 : Vec Ideal S1x4096 .f32)
    (r : Fin 256) (k : Fin 4096) :
    k1_pay12 (F := Ideal) v13 v28 v38 v75 (ix2 r k)
      = v28 (ix2 r k) - Ideal.ofBits .f32 0x3F000000#32 * (k1_pay9 (F := Ideal) v13 v28 v38 (ix2 r (0 : Fin 1)) + v75 (ix2 (0 : Fin 1) k)) := by
  unfold k1_pay12
  try dsimp only
  rw [subf_apply, mulf_apply, addf_apply, broadcast_apply, bcCol_apply, broadcastTo_1b_ab_apply, shapeCast_self,
    Ideal.ofBits_def]

theorem pay1_apply (v3 v5 : FVec Ideal S4096x512 .bf16) (v57 : FVec Ideal S256x4096 .f32) (v62 v74 : FVec Ideal S256x1 .f32)
    (v79 : FVec Ideal S1x4096 .f32) (v85 : FVec Ideal S256x4096 .f32) (v93 v95 : Vec Ideal S1x4096 .f32)
    (r : Fin 256) (d : Fin 512) :
    k1_pay1 (F := Ideal) v3 v5 v57 v62 v74 v79 v85 v93 v95 (ix2 r d)
      = (∑ k : Fin 4096, (Ideal.exp (v85 (ix2 r k)) * v74 (ix2 r (0 : Fin 1)) * v79 (ix2 (0 : Fin 1) k)) * v5 (ix2 k d))
        - ∑ k : Fin 4096, (Ideal.exp (v57 (ix2 r k) - Ideal.ofBits .f32 0x3F000000#32 * (v62 (ix2 r (0 : Fin 1)) + v93 (ix2 (0 : Fin 1) k)))
            * v74 (ix2 r (0 : Fin 1)) * Ideal.rsqrt (v95 (ix2 (0 : Fin 1) k))) * v3 (ix2 k d) := by
  unfold k1_pay1
  try dsimp only
  rw [subf_apply, mmB_apply, mmB_apply]
  refine congrArg₂ (· - ·) (Finset.sum_congr rfl fun k _ => ?_) (Finset.sum_congr rfl fun k _ => ?_)
  · simp only [truncf_apply, mulf_apply, exp_apply, bcCol_apply, broadcastTo_1b_ab_apply]
  · simp only [truncf_apply, mulf_apply, addf_apply, subf_apply, exp_apply, rsqrt_apply, broadcast_apply, bcCol_apply,
      broadcastTo_1b_ab_apply, shapeCast_self, Ideal.ofBits_def]

end K1

namespace K1

theorem diagWord (b : Fin 16) (n : ℕ) (hn : n = b.val) (r : Fin 256) (k : Fin 4096) :
    FloatOps.sitofp (F := Ideal) .f32 ((IntOp.cmpi .eq (IntOp.addi (Scalar.muli (BitVec.ofNat 32 n) 256#32) (BitVec.ofNat 32 r.val))
        (IntOp.addi 0#32 (BitVec.ofNat 32 k.val))).setWidth 32) = diag (rowOf b r) k := by
  subst hn
  have hb := b.isLt
  have hr := r.isLt
  have hk := k.isLt
  have key : IntOp.addi (Scalar.muli (BitVec.ofNat 32 b.val) 256#32) (BitVec.ofNat 32 r.val)
      = IntOp.addi 0#32 (BitVec.ofNat 32 k.val) ↔ rowOf b r = k := by
    constructor
    · intro h
      have h' := congrArg BitVec.toNat h
      simp only [IntOp.addi, Scalar.muli, IntOp.muli, BitVec.toNat_add, BitVec.toNat_mul, BitVec.toNat_ofNat] at h'
      exact Fin.ext (by show 256 * b.val + r.val = k.val; omega)
    · intro h
      have h' : 256 * b.val + r.val = k.val := congrArg Fin.val h
      apply BitVec.eq_of_toNat_eq
      simp only [IntOp.addi, Scalar.muli, IntOp.muli, BitVec.toNat_add, BitVec.toNat_mul, BitVec.toNat_ofNat]
      omega
  by_cases hd : rowOf b r = k
  · have hc : IntOp.cmpi .eq (IntOp.addi (Scalar.muli (BitVec.ofNat 32 b.val) 256#32) (BitVec.ofNat 32 r.val))
        (IntOp.addi 0#32 (BitVec.ofNat 32 k.val)) = 1#1 := by
      rw [key.mpr hd]; simp [IntOp.cmpi]
    rw [hc]
    unfold diag
    rw [if_pos hd]
    show ((((1#1 : BitVec 1).setWidth 32).toInt : ℝ) : EReal) = 1
    have h1 : ((1#1 : BitVec 1).setWidth 32).toInt = 1 := by decide
    rw [h1]; simp
  · have hc : IntOp.cmpi .eq (IntOp.addi (Scalar.muli (BitVec.ofNat 32 b.val) 256#32) (BitVec.ofNat 32 r.val))
        (IntOp.addi 0#32 (BitVec.ofNat 32 k.val)) = 0#1 := by
      have hne : ¬ IntOp.addi (Scalar.muli (BitVec.ofNat 32 b.val) 256#32) (BitVec.ofNat 32 r.val)
          = IntOp.addi 0#32 (BitVec.ofNat 32 k.val) := fun h => hd (key.mp h)
      simp only [IntOp.cmpi]
      rw [beq_eq_false_iff_ne.mpr hne]
      rfl
    rw [hc]
    unfold diag
    rw [if_neg hd]
    show ((((0#1 : BitVec 1).setWidth 32).toInt : ℝ) : EReal) = 0
    have h0 : ((0#1 : BitVec 1).setWidth 32).toInt = 0 := by decide
    rw [h0]; simp

section Block
variable (x y : Mat) (b : Fin 16) (i : grid1.Coords)
variable (xb : Vec Ideal S256x512 .f32) (xF yF : Vec Ideal S4096x512 .bf16) (sqx sqy cmp : Vec Ideal S1x4096 .f32)

theorem sqRow (hxb : ∀ r d, xb (ix2 r d) = x (rowOf b r) d) (r : Fin 256) :
    (∑ d : Fin 512, xb (ix2 r d) * xb (ix2 r d)) = sqn x (rowOf b r) :=
  Finset.sum_congr rfl fun d _ => by rw [hxb]

theorem ipRow (z : Mat) (zF : Vec Ideal S4096x512 .bf16) (hxb : ∀ r d, xb (ix2 r d) = x (rowOf b r) d)
    (hzF : ∀ k d, zF (ix2 k d) = z k d) (r : Fin 256) (k : Fin 4096) :
    (∑ d : Fin 512, xb (ix2 r d) * zF (ix2 k d)) = ip x z (rowOf b r) k :=
  Finset.sum_congr rfl fun d _ => by rw [hxb, hzF]

theorem logitsP (hxb : ∀ r d, xb (ix2 r d) = x (rowOf b r) d) (hyF : ∀ k d, yF (ix2 k d) = y k d)
    (hsqy : ∀ k, sqy (ix2 0 k) = sqn y k) (r : Fin 256) (k : Fin 4096) :
    k1_pay6 (F := Ideal) xb yF sqy (ix2 r k) = Lp x y (rowOf b r) k := by
  rw [pay6_apply, hsqy, zero_sub, sqRow x b xb hxb r, ipRow x b xb y yF hxb hyF r k]
  rfl

theorem logitsN (hi : (i 0).val = b.val) (hxb : ∀ r d, xb (ix2 r d) = x (rowOf b r) d) (hxF : ∀ k d, xF (ix2 k d) = x k d)
    (hsqx : ∀ k, sqx (ix2 0 k) = sqn x k) (r : Fin 256) (k : Fin 4096) :
    k1_pay8 (F := Ideal) (Scalar.muli (BitVec.ofNat 32 (i 0).val) 256#32) (k1_pay7 (F := Ideal) xb xF sqx) (ix2 r k) = Ln x (rowOf b r) k := by
  rw [pay8_apply, pay7_apply, diagWord b _ hi r k, hsqx, zero_sub, sqRow x b xb hxb r, ipRow x b xb x xF hxb hxF r k]
  rfl

theorem rowMaxK (hi : (i 0).val = b.val) (hxb : ∀ r d, xb (ix2 r d) = x (rowOf b r) d) (hxF : ∀ k d, xF (ix2 k d) = x k d)
    (hyF : ∀ k d, yF (ix2 k d) = y k d) (hsqx : ∀ k, sqx (ix2 0 k) = sqn x k) (hsqy : ∀ k, sqy (ix2 0 k) = sqn y k)
    (r : Fin 256) (u : Fin 1) :
    k1_pay9 (F := Ideal) (Scalar.muli (BitVec.ofNat 32 (i 0).val) 256#32) (k1_pay6 (F := Ideal) xb yF sqy) (k1_pay7 (F := Ideal) xb xF sqx) (ix2 r u)
      = rmaxK x y (rowOf b r) := by
  rw [pay9_apply]
  exact congrArg₂ max (congrArg supF (funext fun k => logitsP x y b xb yF sqy hxb hyF hsqy r k))
    (congrArg supF (funext fun k => logitsN x b i xb xF sqx hi hxb hxF hsqx r k))

theorem rowSumK (hi : (i 0).val = b.val) (hxb : ∀ r d, xb (ix2 r d) = x (rowOf b r) d) (hxF : ∀ k d, xF (ix2 k d) = x k d)
    (hyF : ∀ k d, yF (ix2 k d) = y k d) (hsqx : ∀ k, sqx (ix2 0 k) = sqn x k) (hsqy : ∀ k, sqy (ix2 0 k) = sqn y k)
    (r : Fin 256) (u : Fin 1) :
    k1_pay10 (F := Ideal) (Scalar.muli (BitVec.ofNat 32 (i 0).val) 256#32) (k1_pay6 (F := Ideal) xb yF sqy) (k1_pay7 (F := Ideal) xb xF sqx) (ix2 r u)
      = Ideal.rsqrt (rsumK x y (rowOf b r)) := by
  rw [pay10_apply, rowMaxK x y b i xb xF yF sqx sqy hi hxb hxF hyF hsqx hsqy r (0 : Fin 1)]
  exact congrArg Ideal.rsqrt (congrArg₂ (· + ·)
    (Finset.sum_congr rfl fun k _ => by rw [logitsP x y b xb yF sqy hxb hyF hsqy r k])
    (Finset.sum_congr rfl fun k _ => by rw [logitsN x b i xb xF sqx hi hxb hxF hsqx r k]))

theorem shiftedP (hi : (i 0).val = b.val) (hxb : ∀ r d, xb (ix2 r d) = x (rowOf b r) d) (hxF : ∀ k d, xF (ix2 k d) = x k d)
    (hyF : ∀ k d, yF (ix2 k d) = y k d) (hsqx : ∀ k, sqx (ix2 0 k) = sqn x k) (hsqy : ∀ k, sqy (ix2 0 k) = sqn y k)
    (hcmp : ∀ k, cmp (ix2 0 k) = cmaxKp x y k) (r : Fin 256) (k : Fin 4096) :
    k1_pay12 (F := Ideal) (Scalar.muli (BitVec.ofNat 32 (i 0).val) 256#32) (k1_pay6 (F := Ideal) xb yF sqy) (k1_pay7 (F := Ideal) xb xF sqx) cmp (ix2 r k)
      = Lp x y (rowOf b r) k - cHalf * (rmaxK x y (rowOf b r) + cmaxKp x y k) := by
  rw [pay12_apply, logitsP x y b xb yF sqy hxb hyF hsqy r k, rowMaxK x y b i xb xF yF sqx sqy hi hxb hxF hyF hsqx hsqy r (0 : Fin 1), hcmp]
  rfl

end Block

end K1

theorem out_block (x y : Mat) (b : Fin 16) (i : grid1.Coords) (hi : (i 0).val = b.val)
    (xb : Vec Ideal S256x512 .f32) (xF yF : Vec Ideal S4096x512 .bf16) (sqx sqy cmp cmn csp csn : Vec Ideal S1x4096 .f32)
    (hxb : ∀ r d, xb (ix2 r d) = x (rowOf b r) d) (hxF : ∀ k d, xF (ix2 k d) = x k d) (hyF : ∀ k d, yF (ix2 k d) = y k d)
    (hsqx : ∀ k, sqx (ix2 0 k) = sqn x k) (hsqy : ∀ k, sqy (ix2 0 k) = sqn y k)
    (hcmp : ∀ k, cmp (ix2 0 k) = cmaxKp x y k) (hcmn : ∀ k, cmn (ix2 0 k) = cmaxKn x k)
    (hcsp : ∀ k, csp (ix2 0 k) = csumKp x y k) (hcsn : ∀ k, csn (ix2 0 k) = csumKn x k)
    (r : Fin 256) (d : Fin 512) :
    pay1 (F := Ideal) i xb xF yF sqx sqy cmp cmn csp csn (ix2 r d) = outK x y (rowOf b r) d := by
  unfold pay1
  rw [K1.pay1_apply, K1.pay3_eq, K1.pay4_eq]
  unfold outK
  refine congrArg₂ (· - ·) (Finset.sum_congr rfl fun k _ => ?_) (Finset.sum_congr rfl fun k _ => ?_)
  · rw [K1.shiftedP x y b i xb xF yF sqx sqy cmp hi hxb hxF hyF hsqx hsqy hcmp r k,
      K1.rowSumK x y b i xb xF yF sqx sqy hi hxb hxF hyF hsqx hsqy r (0 : Fin 1), K1.pay11_apply, hcsp, hyF]
    rfl
  · rw [K1.logitsN x b i xb xF sqx hi hxb hxF hsqx r k, K1.rowMaxK x y b i xb xF yF sqx sqy hi hxb hxF hyF hsqx hsqy r (0 : Fin 1),
      K1.rowSumK x y b i xb xF yF sqx sqy hi hxb hxF hyF hsqx hsqy r (0 : Fin 1), hcmn, hcsn, hxF]
    rfl

end Cert.KernelIdeal.PayVal

end
-- ==== Proof.Val1.lean ====
import proofs.«425014_j10050223472719_3_alg».proof.Proof.FrKernelIdeal.R1
import proofs.«425014_j10050223472719_3_alg».proof.Proof.PayVal1
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.Spec Cert.KernelIdeal Cert.KernelIdeal.Gen Cert.KernelIdeal.Fr Cert.KernelIdeal.PayVal

variable (V : (c : Dev nD) → (b : Ref sig .tc) → Buf (Elt Ideal) ((c : Thread nD τ).loc b))

theorem hz : (![0, 0] : Fin 2 → Nat) = fun _ => 0 := funext fun a => by fin_cases a <;> rfl

theorem out1_9_eq {F : FTy → Type} [FloatOps F] (i : grid1.Coords) (x0 : Vec F S256x512 .f32) (x1 x2 : Vec F S4096x512 .bf16)
    (x3 x4 x5 x6 x7 x8 : Vec F S1x4096 .f32) :
    out1_9 i x0 x1 x2 x3 x4 x5 x6 x7 x8 = pay1 i x0 x1 x2 x3 x4 x5 x6 x7 x8 := by
  unfold out1_9
  rw [View.canon_unit_zero hz]
  simp only [View.ld_unit_zero (S := S256x512) hz, View.ld_unit_zero (S := S4096x512) hz, View.ld_unit_zero (S := S1x4096) hz]
  rfl

theorem idx_facts : ∀ t : Fin cfg1.N,
    (grid1.coords t (0 : Fin 1)).val = t.val
    ∧ win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem iblk0_apply (c : Dev nD) (t : Fin cfg1.N) (r : Fin 256) (d : Fin 512) (k : S4096x512.Idx)
    (hk0 : (k 0).val = 256 * t.val + r.val) (hk1 : (k 1).val = d.val) :
    (iblk1 V c 0 t : Vec Ideal S256x512 .f32) (ix2 r d) = (V c main_arg0 : S4096x512.Idx → EReal) k := by
  obtain ⟨g, a0, a1, o0, o1, z10, z11, z20, z21, z30, z31, z40, z41, z50, z51, z60, z61, z70, z71, z80, z81⟩ := idx_facts t
  unfold iblk1
  rw [View.read_apply]
  show (V c main_arg0 : S4096x512.Idx → EReal) _ = V c main_arg0 _
  congr 1
  funext a; apply Fin.ext
  match a with
  | ⟨0, _⟩ => show win1_0.index t (0 : Fin 2) * 256 + 1 * r.val = (k 0).val; rw [a0, hk0]; omega
  | ⟨1, _⟩ => show win1_0.index t (1 : Fin 2) * 512 + 1 * d.val = (k 1).val; rw [a1, hk1]; omega

theorem iblk1_apply (c : Dev nD) (t : Fin cfg1.N) (j : S4096x512.Idx) :
    (iblk1 V c 1 t : Vec Ideal S4096x512 .bf16) j = (V c main_v0 : S4096x512.Idx → EReal) j := by
  obtain ⟨g, a0, a1, o0, o1, z10, z11, z20, z21, z30, z31, z40, z41, z50, z51, z60, z61, z70, z71, z80, z81⟩ := idx_facts t
  unfold iblk1
  rw [View.read_apply]
  show (V c main_v0 : S4096x512.Idx → EReal) _ = V c main_v0 _
  congr 1
  funext a; apply Fin.ext
  match a with
  | ⟨0, _⟩ => show win1_1.index t (0 : Fin 2) * 4096 + 1 * (j 0).val = (j 0).val; rw [z10]; omega
  | ⟨1, _⟩ => show win1_1.index t (1 : Fin 2) * 512 + 1 * (j 1).val = (j 1).val; rw [z11]; omega

theorem iblk2_apply (c : Dev nD) (t : Fin cfg1.N) (j : S4096x512.Idx) :
    (iblk1 V c 2 t : Vec Ideal S4096x512 .bf16) j = (V c main_v1 : S4096x512.Idx → EReal) j := by
  obtain ⟨g, a0, a1, o0, o1, z10, z11, z20, z21, z30, z31, z40, z41, z50, z51, z60, z61, z70, z71, z80, z81⟩ := idx_facts t
  unfold iblk1
  rw [View.read_apply]
  show (V c main_v1 : S4096x512.Idx → EReal) _ = V c main_v1 _
  congr 1
  funext a; apply Fin.ext
  match a with
  | ⟨0, _⟩ => show win1_2.index t (0 : Fin 2) * 4096 + 1 * (j 0).val = (j 0).val; rw [z20]; omega
  | ⟨1, _⟩ => show win1_2.index t (1 : Fin 2) * 512 + 1 * (j 1).val = (j 1).val; rw [z21]; omega

theorem iblk3_apply (c : Dev nD) (t : Fin cfg1.N) (j : S1x4096.Idx) :
    (iblk1 V c 3 t : Vec Ideal S1x4096 .f32) j = (V c main_v4 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v4 : S1x4096.Idx → EReal) _ = V c main_v4 _
  congr 1
  funext a; apply Fin.ext
  match a with
  | ⟨0, _⟩ => show win1_3.index t (0 : Fin 2) * 1 + 1 * (j 0).val = (j 0).val; rw [z30]; omega
  | ⟨1, _⟩ => show win1_3.index t (1 : Fin 2) * 4096 + 1 * (j 1).val = (j 1).val; rw [z31]; omega

theorem iblk4_apply (c : Dev nD) (t : Fin cfg1.N) (j : S1x4096.Idx) :
    (iblk1 V c 4 t : Vec Ideal S1x4096 .f32) j = (V c main_v7 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v7 : S1x4096.Idx → EReal) _ = V c main_v7 _
  congr 1
  funext a; apply Fin.ext
  match a with
  | ⟨0, _⟩ => show win1_4.index t (0 : Fin 2) * 1 + 1 * (j 0).val = (j 0).val; rw [z40]; omega
  | ⟨1, _⟩ => show win1_4.index t (1 : Fin 2) * 4096 + 1 * (j 1).val = (j 1).val; rw [z41]; omega

theorem iblk5_apply (c : Dev nD) (t : Fin cfg1.N) (j : S1x4096.Idx) :
    (iblk1 V c 5 t : Vec Ideal S1x4096 .f32) j = (V c main_v8_0 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v8_0 : S1x4096.Idx → EReal) _ = V c main_v8_0 _
  congr 1
  funext a; apply Fin.ext
  match a with
  | ⟨0, _⟩ => show win1_5.index t (0 : Fin 2) * 1 + 1 * (j 0).val = (j 0).val; rw [z50]; omega
  | ⟨1, _⟩ => show win1_5.index t (1 : Fin 2) * 4096 + 1 * (j 1).val = (j 1).val; rw [z51]; omega

theorem iblk6_apply (c : Dev nD) (t : Fin cfg1.N) (j : S1x4096.Idx) :
    (iblk1 V c 6 t : Vec Ideal S1x4096 .f32) j = (V c main_v8_1 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v8_1 : S1x4096.Idx → EReal) _ = V c main_v8_1 _
  congr 1
  funext a; apply Fin.ext
  match a with
  | ⟨0, _⟩ => show win1_6.index t (0 : Fin 2) * 1 + 1 * (j 0).val = (j 0).val; rw [z60]; omega
  | ⟨1, _⟩ => show win1_6.index t (1 : Fin 2) * 4096 + 1 * (j 1).val = (j 1).val; rw [z61]; omega

theorem iblk7_apply (c : Dev nD) (t : Fin cfg1.N) (j : S1x4096.Idx) :
    (iblk1 V c 7 t : Vec Ideal S1x4096 .f32) j = (V c main_v8_2 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v8_2 : S1x4096.Idx → EReal) _ = V c main_v8_2 _
  congr 1
  funext a; apply Fin.ext
  match a with
  | ⟨0, _⟩ => show win1_7.index t (0 : Fin 2) * 1 + 1 * (j 0).val = (j 0).val; rw [z70]; omega
  | ⟨1, _⟩ => show win1_7.index t (1 : Fin 2) * 4096 + 1 * (j 1).val = (j 1).val; rw [z71]; omega

theorem iblk8_apply (c : Dev nD) (t : Fin cfg1.N) (j : S1x4096.Idx) :
    (iblk1 V c 8 t : Vec Ideal S1x4096 .f32) j = (V c main_v8_3 : S1x4096.Idx → EReal) j := by
  obtain ⟨g, a0, a1, o0, o1, z10, z11, z20, z21, z30, z31, z40, z41, z50, z51, z60, z61, z70, z71, z80, z81⟩ := idx_facts t
  unfold iblk1
  rw [View.read_apply]
  show (V c main_v8_3 : S1x4096.Idx → EReal) _ = V c main_v8_3 _
  congr 1
  funext a; apply Fin.ext
  match a with
  | ⟨0, _⟩ => show win1_8.index t (0 : Fin 2) * 1 + 1 * (j 0).val = (j 0).val; rw [z80]; omega
  | ⟨1, _⟩ => show win1_8.index t (1 : Fin 2) * 4096 + 1 * (j 1).val = (j 1).val; rw [z81]; omega

structure Holds (c : Dev nD) (x y : Mat) : Prop where
  hx0 : ∀ i d, (V c main_arg0 : S4096x512.Idx → EReal) (ix2 i d) = x i d
  hx1 : ∀ i d, (V c main_v0 : S4096x512.Idx → EReal) (ix2 i d) = x i d
  hy1 : ∀ i d, (V c main_v1 : S4096x512.Idx → EReal) (ix2 i d) = y i d
  hsqx : ∀ k, (V c main_v4 : S1x4096.Idx → EReal) (ix2 0 k) = sqn x k
  hsqy : ∀ k, (V c main_v7 : S1x4096.Idx → EReal) (ix2 0 k) = sqn y k
  hcmp : ∀ k, (V c main_v8_0 : S1x4096.Idx → EReal) (ix2 0 k) = cmaxKp x y k
  hcmn : ∀ k, (V c main_v8_1 : S1x4096.Idx → EReal) (ix2 0 k) = cmaxKn x k
  hcsp : ∀ k, (V c main_v8_2 : S1x4096.Idx → EReal) (ix2 0 k) = csumKp x y k
  hcsn : ∀ k, (V c main_v8_3 : S1x4096.Idx → EReal) (ix2 0 k) = csumKn x k

abbrev G9 (x y : Mat) : S4096x512.Idx → EReal := fun j => outK x y ⟨(j 0).val, idx2_lt0 j⟩ ⟨(j 1).val, idx2_lt1 j⟩

theorem flushed9_eq (c : Dev nD) (x y : Mat) (h : Holds V c x y) (t : Fin cfg1.N) :
    (dat1 V c).flushed 9 t = ((cfg1.win 9).blk t).view.read (Elt Ideal) (G9 x y) := by
  show (cfg1.win 9).cut (grid1.coords t) ((dat1 V c).after 9 t) = _
  rw [after1_9, out1_9_eq]
  obtain ⟨g, a0, a1, o0, o1, z10, z11, z20, z21, z30, z31, z40, z41, z50, z51, z60, z61, z70, z71, z80, z81⟩ := idx_facts t
  have hN : cfg1.N = 16 := N_1
  funext (j : S256x512.Idx)
  obtain ⟨r, d, rfl⟩ : ∃ (r : Fin 256) (d : Fin 512), j = ix2 r d := ⟨j 0, j 1, eq_ix2 j⟩
  show pay1 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (ix2 r d)
    = G9 x y (((cfg1.win 9).blk t).view.emb (ix2 r d))
  rw [out_block x y ⟨t.val, by omega⟩ (grid1.coords t) g _ _ _ _ _ _ _ _ _
    (fun r d => (iblk0_apply V c t r d (ix2 (rowOf ⟨t.val, by omega⟩ r) d) rfl rfl).trans (h.hx0 _ _))
    (fun k d => (iblk1_apply V c t (ix2 k d)).trans (h.hx1 k d))
    (fun k d => (iblk2_apply V c t (ix2 k d)).trans (h.hy1 k d))
    (fun k => (iblk3_apply V c t (ix2 0 k)).trans (h.hsqx k))
    (fun k => (iblk4_apply V c t (ix2 0 k)).trans (h.hsqy k))
    (fun k => (iblk5_apply V c t (ix2 0 k)).trans (h.hcmp k))
    (fun k => (iblk6_apply V c t (ix2 0 k)).trans (h.hcmn k))
    (fun k => (iblk7_apply V c t (ix2 0 k)).trans (h.hcsp k))
    (fun k => (iblk8_apply V c t (ix2 0 k)).trans (h.hcsn k)) r d]
  have e0 : ((((cfg1.win 9).blk t).view.emb (ix2 r d)) 0).val = 256 * t.val + r.val := by
    show win1_9.index t (0 : Fin 2) * 256 + 1 * r.val = _; rw [o0]; omega
  have e1 : ((((cfg1.win 9).blk t).view.emb (ix2 r d)) 1).val = d.val := by
    show win1_9.index t (1 : Fin 2) * 512 + 1 * d.val = _; rw [o1]; omega
  show outK x y (rowOf ⟨t.val, by omega⟩ r) d = outK x y ⟨_, _⟩ ⟨_, _⟩
  congr 1 <;> apply Fin.ext
  · exact e0.symm
  · exact e1.symm

theorem mem_blk9 (t : Fin cfg1.N) (i : S4096x512.Idx) :
    i ∈ ((cfg1.win 9).blk t).view.set ↔ ∀ a : Fin 2, win1_9.index t a * S256x512.size a ≤ (i a).val ∧ (i a).val < win1_9.index t a * S256x512.size a + S256x512.size a := by
  show i ∈ ((View.whole main_v9).slice (win1_9.rect t)).set ↔ _
  rw [View.set_slice_whole, Rect.mem_set_unit]
  exact Iff.rfl

theorem cover9 (i : S4096x512.Idx) : ∃ t : Fin cfg1.N, (cfg1.win 9).flush t = true ∧ i ∈ ((cfg1.win 9).blk t).view.set := by
  have hi0 : (i 0).val < 4096 := idx2_lt0 i
  have hi1 : (i 1).val < 512 := idx2_lt1 i
  have hN : cfg1.N = 16 := N_1
  obtain ⟨t, ht⟩ : ∃ t : Fin cfg1.N, t.val = (i 0).val / 256 := ⟨⟨(i 0).val / 256, by omega⟩, rfl⟩
  obtain ⟨g, a0, a1, o0, o1, z10, z11, z20, z21, z30, z31, z40, z41, z50, z51, z60, z61, z70, z71, z80, z81⟩ := idx_facts t
  refine ⟨t, flush1_9 t, ?_⟩
  rw [mem_blk9]
  intro a
  match a with
  | ⟨0, _⟩ => show win1_9.index t (0 : Fin 2) * 256 ≤ (i 0).val ∧ (i 0).val < win1_9.index t (0 : Fin 2) * 256 + 256; rw [o0, ht]; omega
  | ⟨1, _⟩ => show win1_9.index t (1 : Fin 2) * 512 ≤ (i 1).val ∧ (i 1).val < win1_9.index t (1 : Fin 2) * 512 + 512; rw [o1]; omega

theorem final9 (c : Dev nD) (x y : Mat) (h : Holds V c x y) : (dat1 V c).arrAt 9 cfg1.N = G9 x y :=
  (dat1 V c).arrAt_eq_of_cover 9 (G9 x y) (fun t _ => flushed9_eq V c x y h t) cover9

theorem arr9 (c : Dev nD) (x y : Mat)
    (hx0 : ∀ i d, (V c main_arg0 : S4096x512.Idx → EReal) (ix2 i d) = x i d)
    (hx1 : ∀ i d, (V c main_v0 : S4096x512.Idx → EReal) (ix2 i d) = x i d)
    (hy1 : ∀ i d, (V c main_v1 : S4096x512.Idx → EReal) (ix2 i d) = y i d)
    (hsqx : ∀ k, (V c main_v4 : S1x4096.Idx → EReal) (ix2 0 k) = sqn x k)
    (hsqy : ∀ k, (V c main_v7 : S1x4096.Idx → EReal) (ix2 0 k) = sqn y k)
    (hcmp : ∀ k, (V c main_v8_0 : S1x4096.Idx → EReal) (ix2 0 k) = cmaxKp x y k)
    (hcmn : ∀ k, (V c main_v8_1 : S1x4096.Idx → EReal) (ix2 0 k) = cmaxKn x k)
    (hcsp : ∀ k, (V c main_v8_2 : S1x4096.Idx → EReal) (ix2 0 k) = csumKp x y k)
    (hcsn : ∀ k, (V c main_v8_3 : S1x4096.Idx → EReal) (ix2 0 k) = csumKn x k) :
    ∀ (i : Fin 4096) (d : Fin 512), ((dat1 V c).arrAt 9 cfg1.N : S4096x512.Idx → EReal) (ix2 i d) = outK x y i d := by
  intro i d
  rw [final9 V c x y ⟨hx0, hx1, hy1, hsqx, hsqy, hcmp, hcmn, hcsp, hcsn⟩]

end Cert.KernelIdeal.Val

end
-- ==== Proof.HostVal.lean ====
import proofs.«425014_j10050223472719_3_alg».proof.Proof.Gen.KernelIdeal.Launch
import proofs.«425014_j10050223472719_3_alg».proof.Proof.SpecIdx
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem Cert.Spec Cert.KernelIdeal Cert.KernelIdeal.Gen

theorem lift_row (hr : S4096x512.Reduces [1] S4096) (k : Fin 4096) (d : Fin 512) :
    hr.lift (ix1 k) d = ix2 k d := by
  funext a
  match a with
  | ⟨0, _⟩ => exact Fin.ext rfl
  | ⟨1, _⟩ => exact Fin.ext rfl

theorem rowsq_apply (X : FVec Ideal S4096x512 .f32) (k : Fin 4096) :
    shapeCast S1x4096
        (Host.reduceAdd (F := Ideal) (mulf X X) (constant (F := Ideal) S_ .f32 0x00000000#32)
          reducesTo_S4096x512_S4096_d1 h_S_)
        shapeCasts_S4096_S1x4096 (ix2 0 k)
      = sqn (mat X) k := by
  have hr : S4096x512.Reduces [1] S4096 := by decide
  rw [shapeCast_a_1a_apply, hostReduceAdd_apply, Ideal.hostReduceAdd_single _ hr, constant_apply,
    Ideal.ofBits_zero_f32, zero_add]
  unfold sqn mat
  refine Finset.sum_congr rfl fun d _ => ?_
  rw [mulf_apply]
  exact congrArg (fun j => X j * X j) (lift_row hr k d)

variable (W : Valuation τ sig (Elt Ideal))

theorem host_v0 (i : Fin 4096) (d : Fin 512) :
    (StableHlo.after hostOps0 W (Proc.devRef .tc main_v0) : S4096x512.Idx → EReal) (ix2 i d)
      = (W (Proc.devRef .tc main_arg0) : S4096x512.Idx → EReal) (ix2 i d) := by
  have e : (StableHlo.after hostOps0 W (Proc.devRef .tc main_v0) : S4096x512.Idx → EReal)
      = (W (Proc.devRef .tc main_arg0) : S4096x512.Idx → EReal) := by
    after_results; rfl
  rw [e]

theorem host_v1 (i : Fin 4096) (d : Fin 512) :
    (StableHlo.after hostOps0 W (Proc.devRef .tc main_v1) : S4096x512.Idx → EReal) (ix2 i d)
      = (W (Proc.devRef .tc main_arg1) : S4096x512.Idx → EReal) (ix2 i d) := by
  have e : (StableHlo.after hostOps0 W (Proc.devRef .tc main_v1) : S4096x512.Idx → EReal)
      = (W (Proc.devRef .tc main_arg1) : S4096x512.Idx → EReal) := by
    after_results; rfl
  rw [e]

theorem host_v4 (k : Fin 4096) :
    (StableHlo.after hostOps0 W (Proc.devRef .tc main_v4) : S1x4096.Idx → EReal) (ix2 0 k)
      = sqn (mat (W (Proc.devRef .tc main_arg0))) k := by
  after_results
  exact rowsq_apply (W (Proc.devRef .tc main_arg0)) k

theorem host_v7 (k : Fin 4096) :
    (StableHlo.after hostOps0 W (Proc.devRef .tc main_v7) : S1x4096.Idx → EReal) (ix2 0 k)
      = sqn (mat (W (Proc.devRef .tc main_arg1))) k := by
  after_results
  exact rowsq_apply (W (Proc.devRef .tc main_arg1)) k

end Cert.KernelIdeal.Val

end
-- ==== Proof.PreFinite.lean ====
import proofs.«425014_j10050223472719_3_alg».proof.Defs
import proofs.«425014_j10050223472719_3_alg».proof.Proof.SpecIdx
import Idealize.ShloMosaic.Lib.ReduceAll
import Idealize.ShloMosaic.Lib.ValueIdx
import Idealize.ShloMosaic.Lib.IdealHost

noncomputable section

namespace Cert.KernelIdeal.Val

open Idealize.ShloMosaic Idealize.ShloMosaic.TcCoe Idealize.ShloMosaic.ValueIdx Idealize.SL.Sem Cert.Spec

theorem ofBits_inf_f32 : Ideal.ofBits .f32 0x7F800000#32 = (⊤ : EReal) := by
  simp [Ideal.ofBits, Ideal.ieee]

theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

theorem finite_of_all [hF : Cert.Pre_finite_inputs.Facts] (X : FVec Ideal Cert.Pre_finite_inputs.S4096x512 .f32)
    (e : Host.reduce IntOp.andi
          (cmpf .olt (Host.absf X)
            (broadcastInDim Cert.Pre_finite_inputs.S4096x512 ![] hF.bcast_S_S4096x512
              (constant (F := Ideal) Cert.Pre_finite_inputs.S_ .f32 0x7F800000#32)))
          (constantI Cert.Pre_finite_inputs.S_ 1 1#1) hF.reducesTo_S4096x512_S_d0_1 hF.h_S_ ix0 = 1#1) :
    Finite (mat X) := by
  haveI : Subsingleton Cert.Pre_finite_inputs.S_.Idx := ⟨fun a b => funext fun d => d.elim0⟩
  intro i d
  have h1 := Host.reduce_andi_all _ _ _ _ _ e (ix2 i d)
  rw [cmpf_apply, broadcastInDim_scalar_apply, constant_apply, ofBits_inf_f32] at h1
  have h2 : max (X (ix2 i d)) (-(X (ix2 i d))) < ⊤ := by
    by_contra hn
    have : Ideal.cmp .olt (max (X (ix2 i d)) (-(X (ix2 i d)))) ⊤ = 0#1 := by
      simp [Ideal.cmp, hn]
    rw [show FloatOps.cmpf .olt (Host.absf X (ix2 i d)) (⊤ : EReal)
          = Ideal.cmp .olt (max (X (ix2 i d)) (-(X (ix2 i d)))) ⊤ from rfl, this] at h1
    exact absurd h1 (by decide)
  exact real_of_abs_lt_top _ h2

theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (mat (m ((c.tc : Thread Cert.KernelIdeal.nD Cert.KernelIdeal.τ).loc Cert.KernelIdeal.main_arg0)))
      ∧ Finite (mat (m ((c.tc : Thread Cert.KernelIdeal.nD Cert.KernelIdeal.τ).loc Cert.KernelIdeal.main_arg1))) := by
  have h1 := congrFun (h c) ix0
  dsimp only [Cert.Pre_finite_inputs.fn] at h1
  obtain ⟨ha, hb⟩ := IntOp.andi_eq_one.1 h1
  exact ⟨finite_of_all _ ha, finite_of_all _ hb⟩

end Cert.KernelIdeal.Val

end
-- ==== Proof.ColRun.lean ====
import proofs.«425014_j10050223472719_3_alg».proof.Proof.Spec
import Mathlib.Data.Finset.Fold
import Mathlib.Data.Finset.Max
import Mathlib.Data.Fintype.BigOperators
import Mathlib.Data.EReal.Operations
import Mathlib.Analysis.Complex.Exponential
import Mathlib.Logic.Equiv.Fin.Basic

noncomputable section

namespace Cert.Spec

open Idealize.ShloMosaic

private theorem coe_sum {ι : Type} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem supF_le_iff {n : ℕ} (f : Fin n → EReal) (c : EReal) : supF f ≤ c ↔ ∀ i, f i ≤ c := by
  unfold supF
  rw [Finset.fold_max_le]
  simp

theorem le_supF {n : ℕ} (f : Fin n → EReal) (i : Fin n) : f i ≤ supF f :=
  (Finset.le_fold_max _).mpr (Or.inr ⟨i, Finset.mem_univ i, le_rfl⟩)

private theorem supF_attained {n : ℕ} (hn : 0 < n) (f : Fin n → EReal) : ∃ i, supF f = f i := by
  haveI : Nonempty (Fin n) := ⟨⟨0, hn⟩⟩
  obtain ⟨i, -, hi⟩ := Finset.exists_max_image Finset.univ f Finset.univ_nonempty
  exact ⟨i, le_antisymm ((supF_le_iff f _).mpr fun j => hi j (Finset.mem_univ j)) (le_supF f i)⟩

private theorem supF_coe {n : ℕ} (hn : 0 < n) (g : Fin n → ℝ) :
    ∃ b : ℝ, supF (fun k => (g k : EReal)) = (b : EReal) ∧ (∀ k, g k ≤ b) ∧ ∃ k, g k = b := by
  obtain ⟨i, hi⟩ := supF_attained hn (fun k => (g k : EReal))
  refine ⟨g i, hi, fun k => ?_, i, rfl⟩
  have h := le_supF (fun k => (g k : EReal)) k
  rw [hi] at h
  exact EReal.coe_le_coe_iff.mp h

theorem supF_real {n : ℕ} (hn : 0 < n) (f : Fin n → EReal) (hf : ∀ i, ∃ r : ℝ, f i = (r : EReal)) :
    ∃ r : ℝ, supF f = (r : EReal) := by
  obtain ⟨i, hi⟩ := supF_attained hn f
  obtain ⟨r, hr⟩ := hf i
  exact ⟨r, hi.trans hr⟩

private theorem exp_coe_sub (a b : ℝ) : Ideal.exp ((a : EReal) - (b : EReal)) = ((Real.exp (a - b) : ℝ) : EReal) := by
  rw [← EReal.coe_sub, Ideal.exp_coe]

theorem expsum_pos {n : ℕ} (hn : 0 < n) (f : Fin n → EReal) (hf : ∀ i, ∃ r : ℝ, f i = (r : EReal)) :
    ∃ s : ℝ, 0 < s ∧ ∑ i : Fin n, Ideal.exp (f i - supF f) = (s : EReal) := by
  choose g hg using hf
  obtain rfl : f = fun i => (g i : EReal) := funext hg
  obtain ⟨b, hb, -, -⟩ := supF_coe hn g
  refine ⟨∑ i, Real.exp (g i - b), ?_, ?_⟩
  · haveI : Nonempty (Fin n) := ⟨⟨0, hn⟩⟩
    exact Finset.sum_pos (fun i _ => Real.exp_pos _) Finset.univ_nonempty
  · rw [hb, ← coe_sum]
    exact Finset.sum_congr rfl fun i _ => exp_coe_sub _ _

private theorem colStep_bot (g : Fin 256 → ℝ) (b : ℝ) (hb : supF (fun k => (g k : EReal)) = (b : EReal)) :
    colStep (fun k => (g k : EReal)) (⊥, 0) = ((b : EReal), ((∑ k, Real.exp (g k - b) : ℝ) : EReal)) := by
  unfold colStep
  simp only [hb, max_bot_left, EReal.bot_sub, Ideal.exp_bot, mul_zero, zero_add, exp_coe_sub, coe_sum]

private theorem colStep_coe (g : Fin 256 → ℝ) (b m S : ℝ) (hb : supF (fun k => (g k : EReal)) = (b : EReal)) :
    colStep (fun k => (g k : EReal)) ((m : EReal), (S : EReal)) =
      (((max m b : ℝ) : EReal),
        ((S * Real.exp (m - max m b) + ∑ k, Real.exp (g k - max m b) : ℝ) : EReal)) := by
  have hmax : max (m : EReal) (b : EReal) = ((max m b : ℝ) : EReal) :=
    (EReal.coe_strictMono.monotone.map_max).symm
  unfold colStep
  simp only [hb, hmax, exp_coe_sub, coe_sum, EReal.coe_add, EReal.coe_mul]

private def blk (r : Fin 4096 → ℝ) (m : ℝ) (j : ℕ) : ℝ :=
  if h : j < 16 then ∑ k : Fin 256, Real.exp (r (rowOf ⟨j, h⟩ k) - m) else 0

private theorem blk_rescale (r : Fin 4096 → ℝ) (m m' : ℝ) (j : ℕ) :
    blk r m j * Real.exp (m - m') = blk r m' j := by
  unfold blk
  split_ifs with h
  · rw [Finset.sum_mul]
    refine Finset.sum_congr rfl fun k _ => ?_
    rw [← Real.exp_add]
    congr 1
    ring
  · simp

private theorem colRun_inv (r : Fin 4096 → ℝ) (n : ℕ) (hn : n < 16) :
    ∃ m : ℝ, colRun (fun i => (r i : EReal)) (n + 1)
        = ((m : EReal), ((∑ j ∈ Finset.range (n + 1), blk r m j : ℝ) : EReal))
      ∧ (∀ b : Fin 16, b.val ≤ n → ∀ k, r (rowOf b k) ≤ m) ∧ ∃ b : Fin 16, ∃ k, r (rowOf b k) = m := by
  induction n with
  | zero =>
    obtain ⟨b, hb, hle, k, hk⟩ := supF_coe (by norm_num : 0 < 256) (fun k => r (rowOf ⟨0, hn⟩ k))
    refine ⟨b, ?_, ?_, ⟨0, hn⟩, k, hk⟩
    · rw [colRun, dif_pos hn, colRun, colStep_bot _ b hb]
      simp [blk]
    · intro c hc k'
      obtain rfl : c = ⟨0, hn⟩ := Fin.ext (by show c.val = 0; omega)
      exact hle k'
  | succ n ih =>
    obtain ⟨m, hrun, hle, c, k, hk⟩ := ih (by omega)
    obtain ⟨b, hb, hble, k', hk'⟩ := supF_coe (by norm_num : 0 < 256) (fun k => r (rowOf ⟨n + 1, hn⟩ k))
    refine ⟨max m b, ?_, ?_, ?_⟩
    · rw [colRun, dif_pos hn, hrun, colStep_coe _ b m _ hb]
      congr 2
      rw [Finset.sum_range_succ _ (n + 1), Finset.sum_mul]
      congr 1
      · exact Finset.sum_congr rfl fun j _ => blk_rescale r m _ j
      · simp [blk, hn]
    · intro c' hc' k''
      rcases Nat.lt_or_ge n c'.val with h | h
      · obtain rfl : c' = ⟨n + 1, hn⟩ := Fin.ext (by simp; omega)
        exact (hble k'').trans (le_max_right _ _)
      · exact (hle c' h k'').trans (le_max_left _ _)
    · rcases le_total m b with h | h
      · exact ⟨⟨n + 1, hn⟩, k', by rw [max_eq_right h]; exact hk'⟩
      · exact ⟨c, k, by rw [max_eq_left h]; exact hk⟩

private theorem rowOf_surj (i : Fin 4096) : ∃ b k, rowOf b k = i :=
  ⟨⟨i.val / 256, by omega⟩, ⟨i.val % 256, Nat.mod_lt _ (by norm_num)⟩, Fin.ext (by simp [rowOf]; omega)⟩

private theorem sum_rowOf (F : Fin 4096 → ℝ) :
    ∑ i, F i = ∑ b : Fin 16, ∑ k : Fin 256, F (rowOf b k) := by
  rw [← Fintype.sum_prod_type' (fun b k => F (rowOf b k))]
  symm
  refine Fintype.sum_equiv (finProdFinEquiv : Fin 16 × Fin 256 ≃ Fin 4096) _ _ fun p => ?_
  congr 1
  ext
  show 256 * (p.1 : ℕ) + (p.2 : ℕ) = (p.2 : ℕ) + 256 * (p.1 : ℕ)
  omega

private theorem colRun_final (r : Fin 4096 → ℝ) :
    ∃ m : ℝ, supF (fun i => (r i : EReal)) = (m : EReal)
      ∧ colRun (fun i => (r i : EReal)) 16 = ((m : EReal), ((∑ i, Real.exp (r i - m) : ℝ) : EReal)) := by
  obtain ⟨m, hrun, hle, c, k, hk⟩ := colRun_inv r 15 (by norm_num)
  refine ⟨m, le_antisymm ?_ ?_, ?_⟩
  · refine (supF_le_iff _ _).mpr fun i => ?_
    obtain ⟨b, k', rfl⟩ := rowOf_surj i
    exact EReal.coe_le_coe_iff.mpr (hle b (by omega) k')
  · rw [← hk]
    exact le_supF (fun i => (r i : EReal)) (rowOf c k)
  · rw [hrun, sum_rowOf, ← Fin.sum_univ_eq_sum_range (blk r m) 16]
    simp [blk]

theorem colRun_fst (col : Fin 4096 → EReal) (hc : ∀ i, ∃ r : ℝ, col i = (r : EReal)) :
    (colRun col 16).1 = supF col := by
  choose r hr using hc
  obtain rfl : col = fun i => (r i : EReal) := funext hr
  obtain ⟨m, hm, hrun⟩ := colRun_final r
  rw [hrun, hm]

theorem colRun_snd (col : Fin 4096 → EReal) (hc : ∀ i, ∃ r : ℝ, col i = (r : EReal)) :
    (colRun col 16).2 = ∑ i : Fin 4096, Ideal.exp (col i - supF col) := by
  choose r hr using hc
  obtain rfl : col = fun i => (r i : EReal) := funext hr
  obtain ⟨m, hm, hrun⟩ := colRun_final r
  rw [hrun, hm]
  show ((∑ i, Real.exp (r i - m) : ℝ) : EReal) = _
  rw [← coe_sum]
  exact Finset.sum_congr rfl fun i _ => (exp_coe_sub _ _).symm

end Cert.Spec

end
-- ==== Proof.SpecSplit.lean ====
import proofs.«425014_j10050223472719_3_alg».proof.Proof.Spec

noncomputable section

namespace Cert.Spec

open Idealize.ShloMosaic

variable (x y : Mat)

private theorem coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

private theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem cTau_real : ∃ t : ℝ, 0 < t ∧ cTau = (t : EReal) := by
  refine ⟨13421773 * (2 ^ 27)⁻¹, by positivity, ?_⟩
  unfold cTau
  simp [Ideal.ofBits, Ideal.ieee]

theorem cHalf_eq : cHalf = ((1 / 2 : ℝ) : EReal) := by
  unfold cHalf
  simp [Ideal.ofBits, Ideal.ieee]
  rw [← EReal.coe_mul]
  congr 1
  norm_num

private theorem cEps_real : ∃ e : ℝ, 0 < e ∧ cEps = (e : EReal) := by
  refine ⟨9223372 * (2 ^ 63)⁻¹, by positivity, ?_⟩
  unfold cEps
  simp [Ideal.ofBits, Ideal.ieee]

private theorem cMask_real : ∃ m : ℝ, cMask = (m : EReal) := by
  refine ⟨16000000 * (2 ^ 4)⁻¹, ?_⟩
  unfold cMask
  simp [Ideal.ofBits, Ideal.ieee]

private theorem cTwo_real : ∃ c : ℝ, cTwo = (c : EReal) := by
  refine ⟨8388608 * (2 ^ 22)⁻¹, ?_⟩
  unfold cTwo
  simp [Ideal.ofBits, Ideal.ieee]

private theorem ip_real {a b : Mat} (ha : Finite a) (hb : Finite b) (i k : Fin 4096) :
    ∃ r : ℝ, ip a b i k = (r : EReal) := by
  choose f hf using ha
  choose g hg using hb
  refine ⟨∑ d : Fin 512, f i d * g k d, ?_⟩
  unfold ip
  rw [← coe_sum_real]
  refine Finset.sum_congr rfl fun d _ => ?_
  rw [hf, hg, EReal.coe_mul]

private theorem sqn_real {a : Mat} (ha : Finite a) (i : Fin 4096) : ∃ r : ℝ, sqn a i = (r : EReal) :=
  ip_real ha ha i i

private theorem dist_real {a b : Mat} (ha : Finite a) (hb : Finite b) (i k : Fin 4096) :
    ∃ r : ℝ, dist a b i k = (r : EReal) := by
  obtain ⟨s₁, h₁⟩ := sqn_real ha i
  obtain ⟨s₂, h₂⟩ := sqn_real hb k
  obtain ⟨p, hp⟩ := ip_real ha hb i k
  obtain ⟨c, hc⟩ := cTwo_real
  obtain ⟨e, he, hE⟩ := cEps_real
  refine ⟨Real.sqrt (max (s₁ + s₂ - c * p) e), ?_⟩
  unfold dist
  rw [h₁, h₂, hp, hc, hE, ← EReal.coe_add, ← EReal.coe_mul, ← EReal.coe_sub, coe_max_real,
    Ideal.sqrt_coe, if_neg (not_lt.mpr (le_trans he.le (le_max_right _ _)))]

private theorem diag_real (i k : Fin 4096) : ∃ r : ℝ, diag i k = (r : EReal) := by
  unfold diag
  split_ifs
  · exact ⟨1, EReal.coe_one.symm⟩
  · exact ⟨0, EReal.coe_zero.symm⟩

theorem Lp_real (hx : Finite x) (hy : Finite y) (i k : Fin 4096) : ∃ r : ℝ, Lp x y i k = (r : EReal) := by
  obtain ⟨r, hr⟩ := dist_real hx hy i k
  obtain ⟨t, ht, hT⟩ := cTau_real
  refine ⟨-r * (1 / t), ?_⟩
  unfold Lp
  rw [hr, hT, Ideal.div_coe ht.ne', ← EReal.coe_neg, ← EReal.coe_mul]

theorem Ln_real (hx : Finite x) (i k : Fin 4096) : ∃ r : ℝ, Ln x i k = (r : EReal) := by
  obtain ⟨r, hr⟩ := dist_real hx hx i k
  obtain ⟨m, hm⟩ := cMask_real
  obtain ⟨δ, hδ⟩ := diag_real i k
  obtain ⟨t, ht, hT⟩ := cTau_real
  refine ⟨-(r + m * δ) * (1 / t), ?_⟩
  unfold Ln
  rw [hr, hm, hδ, hT, Ideal.div_coe ht.ne', ← EReal.coe_mul, ← EReal.coe_add, ← EReal.coe_neg,
    ← EReal.coe_mul]

theorem L_pos (i k : Fin 4096) : L x y i (posCol k) = Lp x y i k := by
  have h : (posCol k).val < 4096 := k.isLt
  unfold L
  rw [dif_pos h]
  rfl

theorem L_neg (i k : Fin 4096) : L x y i (negCol k) = Ln x i k := by
  have h : ¬ (negCol k).val < 4096 := by
    show ¬ (k.val + 4096 < 4096)
    omega
  have e : (⟨(negCol k).val - 4096, by omega⟩ : Fin 4096) = k := Fin.ext (Nat.add_sub_cancel k.val 4096)
  unfold L
  rw [dif_neg h, e]

theorem L_real (hx : Finite x) (hy : Finite y) (i : Fin 4096) (c : Fin 8192) : ∃ r : ℝ, L x y i c = (r : EReal) := by
  unfold L
  split
  · exact Lp_real x y hx hy i _
  · exact Ln_real x hx i _

private theorem le_supF {n : ℕ} (f : Fin n → EReal) (j : Fin n) : f j ≤ supF f :=
  (Finset.le_fold_max _).mpr (Or.inr ⟨j, Finset.mem_univ j, le_rfl⟩)

private theorem supF_le {n : ℕ} (f : Fin n → EReal) (c : EReal) (h : ∀ j, f j ≤ c) : supF f ≤ c :=
  (Finset.fold_max_le _).mpr ⟨bot_le, fun j _ => h j⟩

private theorem col_cases (c : Fin 8192) : (∃ k, c = posCol k) ∨ ∃ k, c = negCol k := by
  by_cases h : c.val < 4096
  · exact Or.inl ⟨⟨c.val, h⟩, rfl⟩
  · refine Or.inr ⟨⟨c.val - 4096, by omega⟩, Fin.ext ?_⟩
    show c.val = c.val - 4096 + 4096
    omega

theorem supF_split (f : Fin 8192 → EReal) :
    supF f = max (supF fun k : Fin 4096 => f (posCol k)) (supF fun k : Fin 4096 => f (negCol k)) := by
  apply le_antisymm
  · refine supF_le f _ fun c => ?_
    rcases col_cases c with ⟨k, rfl⟩ | ⟨k, rfl⟩
    · exact le_trans (le_supF (fun k : Fin 4096 => f (posCol k)) k) (le_max_left _ _)
    · exact le_trans (le_supF (fun k : Fin 4096 => f (negCol k)) k) (le_max_right _ _)
  · exact max_le (supF_le _ _ fun k => le_supF f (posCol k)) (supF_le _ _ fun k => le_supF f (negCol k))

theorem sum_split (f : Fin 8192 → EReal) :
    ∑ c : Fin 8192, f c = (∑ k : Fin 4096, f (posCol k)) + ∑ k : Fin 4096, f (negCol k) := by
  have h := Fin.sum_univ_add (a := 4096) (b := 4096) f
  have hp : ∀ k : Fin 4096, Fin.castAdd 4096 k = posCol k := fun k => Fin.ext rfl
  have hn : ∀ k : Fin 4096, Fin.natAdd 4096 k = negCol k := fun k => Fin.ext (Nat.add_comm _ _)
  simp only [hp, hn] at h
  exact h

theorem rmaxK_eq (i : Fin 4096) : rmaxK x y i = rmaxR x y i := by
  unfold rmaxK rmaxR
  rw [supF_split]
  simp only [L_pos, L_neg]

theorem rsumK_eq (i : Fin 4096) : rsumK x y i = rsumR x y i := by
  unfold rsumK rsumR
  rw [sum_split, rmaxK_eq]
  simp only [L_pos, L_neg]

end Cert.Spec

end
-- ==== Proof.SpecMath.lean ====
import proofs.«425014_j10050223472719_3_alg».proof.Proof.Spec
import proofs.«425014_j10050223472719_3_alg».proof.Proof.ColRun
import proofs.«425014_j10050223472719_3_alg».proof.Proof.SpecSplit
import Mathlib.Analysis.SpecialFunctions.Sqrt
import Mathlib.Analysis.SpecialFunctions.Exp

noncomputable section

namespace Cert.Spec

open Idealize.ShloMosaic

theorem weight_real (l a b r c : ℝ) (hr : 0 < r) (hc : 0 < c) :
    Real.sqrt ((Real.exp (l - a) * (1 / r)) * (Real.exp (l - b) * (1 / c))) =
      Real.exp (l - 1 / 2 * (a + b)) * (Real.sqrt r)⁻¹ * (Real.sqrt c)⁻¹ := by
  have he : Real.exp (l - a) * Real.exp (l - b)
      = Real.exp (l - 1 / 2 * (a + b)) * Real.exp (l - 1 / 2 * (a + b)) := by
    rw [← Real.exp_add, ← Real.exp_add]; congr 1; ring
  have hsr : Real.sqrt r * Real.sqrt r = r := Real.mul_self_sqrt hr.le
  have hsc : Real.sqrt c * Real.sqrt c = c := Real.mul_self_sqrt hc.le
  have hr' : 1 / r = (Real.sqrt r)⁻¹ * (Real.sqrt r)⁻¹ := by rw [← mul_inv, hsr, one_div]
  have hc' : 1 / c = (Real.sqrt c)⁻¹ * (Real.sqrt c)⁻¹ := by rw [← mul_inv, hsc, one_div]
  have hsr0 : 0 < Real.sqrt r := Real.sqrt_pos.mpr hr
  have hsc0 : 0 < Real.sqrt c := Real.sqrt_pos.mpr hc
  have hsq : (Real.exp (l - a) * (1 / r)) * (Real.exp (l - b) * (1 / c))
      = (Real.exp (l - 1 / 2 * (a + b)) * (Real.sqrt r)⁻¹ * (Real.sqrt c)⁻¹)
        * (Real.exp (l - 1 / 2 * (a + b)) * (Real.sqrt r)⁻¹ * (Real.sqrt c)⁻¹) := by
    calc (Real.exp (l - a) * (1 / r)) * (Real.exp (l - b) * (1 / c))
        = (Real.exp (l - a) * Real.exp (l - b)) * (1 / r) * (1 / c) := by ring
      _ = _ := by rw [he, hr', hc']; ring
  rw [hsq]
  exact Real.sqrt_mul_self (by positivity)

theorem weight_ereal (l a b r c : ℝ) (hr : 0 < r) (hc : 0 < c) :
    Ideal.exp ((l : EReal) - cHalf * ((a : EReal) + (b : EReal))) * Ideal.rsqrt (r : EReal)
        * Ideal.rsqrt (c : EReal)
      = Ideal.sqrt (Ideal.div (Ideal.exp ((l : EReal) - (a : EReal))) (r : EReal)
        * Ideal.div (Ideal.exp ((l : EReal) - (b : EReal))) (c : EReal)) := by
  have hnn : ¬ ((Real.exp (l - a) * (1 / r)) * (Real.exp (l - b) * (1 / c)) < 0) := by
    have : 0 ≤ (Real.exp (l - a) * (1 / r)) * (Real.exp (l - b) * (1 / c)) := by positivity
    exact not_lt.mpr this
  rw [cHalf_eq, Ideal.div_coe hr.ne', Ideal.div_coe hc.ne']
  rw [← EReal.coe_add, ← EReal.coe_mul, ← EReal.coe_sub, ← EReal.coe_sub, ← EReal.coe_sub]
  rw [Ideal.exp_coe, Ideal.exp_coe, Ideal.exp_coe, ← EReal.coe_mul, ← EReal.coe_mul, ← EReal.coe_mul]
  rw [Ideal.sqrt_coe, if_neg hnn, Ideal.rsqrt_coe, if_neg (not_lt.mpr hr.le), if_neg hr.ne',
    Ideal.rsqrt_coe, if_neg (not_lt.mpr hc.le), if_neg hc.ne', ← EReal.coe_mul, ← EReal.coe_mul,
    weight_real l a b r c hr hc]

variable (x y : Mat)

theorem cmaxR_pos (k : Fin 4096) : cmaxR x y (posCol k) = supF (fun i => Lp x y i k) := by
  have h : (fun i => L x y i (posCol k)) = fun i => Lp x y i k := funext fun i => L_pos x y i k
  unfold cmaxR; rw [h]

theorem cmaxR_neg (k : Fin 4096) : cmaxR x y (negCol k) = supF (fun i => Ln x i k) := by
  have h : (fun i => L x y i (negCol k)) = fun i => Ln x i k := funext fun i => L_neg x y i k
  unfold cmaxR; rw [h]

theorem csumR_pos (k : Fin 4096) :
    csumR x y (posCol k) = ∑ i : Fin 4096, Ideal.exp (Lp x y i k - supF (fun i => Lp x y i k)) := by
  unfold csumR; rw [cmaxR_pos]
  exact Finset.sum_congr rfl (fun i _ => by rw [L_pos])

theorem csumR_neg (k : Fin 4096) :
    csumR x y (negCol k) = ∑ i : Fin 4096, Ideal.exp (Ln x i k - supF (fun i => Ln x i k)) := by
  unfold csumR; rw [cmaxR_neg]
  exact Finset.sum_congr rfl (fun i _ => by rw [L_neg])

theorem AKp_eq (hx : Finite x) (hy : Finite y) (i k : Fin 4096) : AKp x y i k = AR x y i (posCol k) := by
  have hcol : ∀ i', ∃ r : ℝ, Lp x y i' k = (r : EReal) := fun i' => Lp_real x y hx hy i' k
  obtain ⟨l, hl⟩ := Lp_real x y hx hy i k
  obtain ⟨a, ha⟩ := supF_real (by norm_num) (fun c => L x y i c) (L_real x y hx hy i)
  obtain ⟨r, hr, hrs⟩ := expsum_pos (by norm_num) (fun c => L x y i c) (L_real x y hx hy i)
  obtain ⟨b, hb⟩ := supF_real (by norm_num) (fun i' => Lp x y i' k) hcol
  obtain ⟨c, hc, hcs⟩ := expsum_pos (by norm_num) (fun i' => Lp x y i' k) hcol
  have h1 : rmaxR x y i = a := ha
  have h2 : rsumR x y i = r := hrs
  have h3 : cmaxKp x y k = b := by unfold cmaxKp; rw [colRun_fst _ hcol, hb]
  have h4 : csumKp x y k = c := by unfold csumKp; rw [colRun_snd _ hcol, hcs]
  have h5 : cmaxR x y (posCol k) = b := by rw [cmaxR_pos, hb]
  have h6 : csumR x y (posCol k) = c := by rw [csumR_pos, hcs]
  unfold AKp AR
  rw [rmaxK_eq, rsumK_eq, L_pos, h1, h2, h3, h4, h5, h6, hl]
  exact weight_ereal l a b r c hr hc

theorem AKn_eq (hx : Finite x) (hy : Finite y) (i k : Fin 4096) : AKn x y i k = AR x y i (negCol k) := by
  have hcol : ∀ i', ∃ r : ℝ, Ln x i' k = (r : EReal) := fun i' => Ln_real x hx i' k
  obtain ⟨l, hl⟩ := Ln_real x hx i k
  obtain ⟨a, ha⟩ := supF_real (by norm_num) (fun c => L x y i c) (L_real x y hx hy i)
  obtain ⟨r, hr, hrs⟩ := expsum_pos (by norm_num) (fun c => L x y i c) (L_real x y hx hy i)
  obtain ⟨b, hb⟩ := supF_real (by norm_num) (fun i' => Ln x i' k) hcol
  obtain ⟨c, hc, hcs⟩ := expsum_pos (by norm_num) (fun i' => Ln x i' k) hcol
  have h1 : rmaxR x y i = a := ha
  have h2 : rsumR x y i = r := hrs
  have h3 : cmaxKn x k = b := by unfold cmaxKn; rw [colRun_fst _ hcol, hb]
  have h4 : csumKn x k = c := by unfold csumKn; rw [colRun_snd _ hcol, hcs]
  have h5 : cmaxR x y (negCol k) = b := by rw [cmaxR_neg, hb]
  have h6 : csumR x y (negCol k) = c := by rw [csumR_neg, hcs]
  unfold AKn AR
  rw [rmaxK_eq, rsumK_eq, L_neg, h1, h2, h3, h4, h5, h6, hl]
  exact weight_ereal l a b r c hr hc

theorem outK_eq_outR (hx : Finite x) (hy : Finite y) : outK x y = outR x y := by
  funext i d
  unfold outK outR
  have hp : (∑ k : Fin 4096, AKp x y i k * y k d) = ∑ k : Fin 4096, AR x y i (posCol k) * y k d :=
    Finset.sum_congr rfl (fun k _ => by rw [AKp_eq x y hx hy i k])
  have hn : (∑ k : Fin 4096, AKn x y i k * x k d) = ∑ k : Fin 4096, AR x y i (negCol k) * x k d :=
    Finset.sum_congr rfl (fun k _ => by rw [AKn_eq x y hx hy i k])
  rw [hp, hn]

end Cert.Spec

end
-- ==== Proof.Assemble.lean ====
import proofs.«425014_j10050223472719_3_alg».proof.Proof.FrKernelIdeal.Main
import proofs.«425014_j10050223472719_3_alg».proof.Proof.Val0
import proofs.«425014_j10050223472719_3_alg».proof.Proof.Val1
import proofs.«425014_j10050223472719_3_alg».proof.Proof.HostVal
import proofs.«425014_j10050223472719_3_alg».proof.Proof.PreFinite
import proofs.«425014_j10050223472719_3_alg».proof.Proof.SpecMath

set_option maxRecDepth 16384

noncomputable section

namespace Cert.KernelIdeal.Val

open Idealize.ShloMosaic Idealize.ShloMosaic.TcCoe Idealize.ShloMosaic.ValueIdx Idealize.SL.Sem
open Cert.Spec Cert.KernelIdeal Cert.KernelIdeal.Gen Cert.KernelIdeal.Fr

variable (m : (ℓ : Loc nD τ sig) → Buf (Elt Ideal) ℓ) (ρ : Dev nD → PrngReg)

abbrev X (c : Dev nD) : Mat := mat (m ((c.tc : Thread nD τ).loc main_arg0))
abbrev Y (c : Dev nD) : Mat := mat (m ((c.tc : Thread nD τ).loc main_arg1))

def Gout (c : Dev nD) : S4096x512.Idx → EReal := fun j => outR (X m c) (Y m c) (j 0) (j 1)

theorem e1_x0 (c : Dev nD) (i : Fin 4096) (d : Fin 512) :
    (V1 m ρ c main_arg0 : S4096x512.Idx → EReal) (ix2 i d) = X m c i d := by
  rw [V1_main_arg0]; rfl
theorem e1_x1 (c : Dev nD) (i : Fin 4096) (d : Fin 512) :
    (V1 m ρ c main_v0 : S4096x512.Idx → EReal) (ix2 i d) = X m c i d :=
  (host_v0 (W0 m ρ c) i d).trans rfl
theorem e1_y1 (c : Dev nD) (i : Fin 4096) (d : Fin 512) :
    (V1 m ρ c main_v1 : S4096x512.Idx → EReal) (ix2 i d) = Y m c i d :=
  (host_v1 (W0 m ρ c) i d).trans rfl
theorem e1_sqx (c : Dev nD) (k : Fin 4096) :
    (V1 m ρ c main_v4 : S1x4096.Idx → EReal) (ix2 0 k) = sqn (X m c) k :=
  (host_v4 (W0 m ρ c) k).trans rfl
theorem e1_sqy (c : Dev nD) (k : Fin 4096) :
    (V1 m ρ c main_v7 : S1x4096.Idx → EReal) (ix2 0 k) = sqn (Y m c) k :=
  (host_v7 (W0 m ρ c) k).trans rfl

theorem result_outK (c : Dev nD) (i : Fin 4096) (d : Fin 512) :
    ((dat1 (V2 m ρ) c).arrAt 9 cfg1.N : S4096x512.Idx → EReal) (ix2 i d) = outK (X m c) (Y m c) i d :=
  arr9 (V2 m ρ) c (X m c) (Y m c)
    (fun i d => by rw [V2_main_arg0]; exact e1_x0 m ρ c i d)
    (fun i d => by rw [V2_main_v0]; exact e1_x1 m ρ c i d)
    (fun i d => by rw [V2_main_v1]; exact e1_y1 m ρ c i d)
    (fun k => by rw [V2_main_v4]; exact e1_sqx m ρ c k)
    (fun k => by rw [V2_main_v7]; exact e1_sqy m ρ c k)
    (fun k => by rw [V2_main_v8_0]; exact arr5 (V1 m ρ) c (X m c) (Y m c) (e1_x0 m ρ c) (e1_x1 m ρ c) (e1_y1 m ρ c) (e1_sqx m ρ c) (e1_sqy m ρ c) k)
    (fun k => by rw [V2_main_v8_1]; exact arr6 (V1 m ρ) c (X m c) (Y m c) (e1_x0 m ρ c) (e1_x1 m ρ c) (e1_y1 m ρ c) (e1_sqx m ρ c) (e1_sqy m ρ c) k)
    (fun k => by rw [V2_main_v8_2]; exact arr7 (V1 m ρ) c (X m c) (Y m c) (e1_x0 m ρ c) (e1_x1 m ρ c) (e1_y1 m ρ c) (e1_sqx m ρ c) (e1_sqy m ρ c) k)
    (fun k => by rw [V2_main_v8_3]; exact arr8 (V1 m ρ) c (X m c) (Y m c) (e1_x0 m ρ c) (e1_x1 m ρ c) (e1_y1 m ρ c) (e1_sqx m ρ c) (e1_sqy m ρ c) k)
    i d

theorem result_eq [hPre_finite_inputs : Cert.Pre_finite_inputs.Facts] (hpre : Cert.Pre_KernelIdeal m) (c : Dev nD) :
    ((dat1 (V2 m ρ) c).arrAt 9 cfg1.N : S4096x512.Idx → EReal) = Gout m c := by
  funext j
  obtain ⟨hx, hy⟩ := finite_of_pre m hpre c
  rw [eq_ix2 j]
  exact (result_outK m ρ c (j 0) (j 1)).trans (congrFun (congrFun (outK_eq_outR (X m c) (Y m c) hx hy) (j 0)) (j 1))

theorem kernel_value [hPre_finite_inputs : Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v9) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ hpre c), (h c).2⟩) (run_value (F := Ideal) m ρ)

end Cert.KernelIdeal.Val

end
-- ==== Proof.RefValue.lean ====
import proofs.«425014_j10050223472719_3_alg».proof.Defs
import proofs.«425014_j10050223472719_3_alg».proof.Proof.Gen.ReferenceIdeal.Run
import proofs.«425014_j10050223472719_3_alg».proof.Proof.Gen.ReferenceIdeal.Read
import proofs.«425014_j10050223472719_3_alg».proof.Proof.SpecIdx
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.Spec Cert.ReferenceIdeal Cert.ReferenceIdeal.Read

theorem idx2_eq {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

theorem idx1_eq {n : Nat} (j : (⟨1, ![n]⟩ : Shape).Idx) (a : Fin n) (h0 : (j 0).val = a.val) : j = ix1 a :=
  funext fun d => Fin.ext (by match d with | ⟨0, _⟩ => exact h0)

section Stages

variable (X Y : (⟨2, ![4096, 512]⟩ : Shape).Idx → EReal)

theorem v1_at (i : Fin 4096) : val_main_v1 (F := Ideal) X (ix1 i) = sqn (mat X) i := by
  rw [val_main_v1_apply]
  show Ideal.ofBits .f32 0x00000000#32 + _ = _
  rw [Ideal.ofBits_zero_f32, zero_add]
  refine Finset.sum_congr rfl fun k _ => ?_
  rw [val_main_v0_apply, show idx_main_v1 (ix1 i) k = ix2 i k from idx2_eq _ _ _ rfl rfl]
  rfl

theorem v4_at (k : Fin 4096) : val_main_v4 (F := Ideal) Y (ix1 k) = sqn (mat Y) k := by
  rw [val_main_v4_apply]
  show Ideal.ofBits .f32 0x00000000#32 + _ = _
  rw [Ideal.ofBits_zero_f32, zero_add]
  refine Finset.sum_congr rfl fun d _ => ?_
  rw [val_main_v3_apply, show idx_main_v4 (ix1 k) d = ix2 k d from idx2_eq _ _ _ rfl rfl]
  rfl

theorem v8_at (i k : Fin 4096) :
    val_main_v8 (F := Ideal) X Y (ix2 i k) = sqn (mat X) i + sqn (mat Y) k := by
  rw [val_main_v8_apply, val_main_v6_apply, val_main_v2_apply, val_main_v7_apply, val_main_v5_apply,
    show idx_main_v2 (idx_main_v6 (ix2 i k)) = ix1 i from idx1_eq _ _ rfl,
    show idx_main_v5 (idx_main_v7 (ix2 i k)) = ix1 k from idx1_eq _ _ rfl, v1_at, v4_at]
  rfl

theorem v10_at (i k : Fin 4096) : val_main_v10 (F := Ideal) X Y (ix2 i k) = ip (mat X) (mat Y) i k := by
  rw [val_main_v10_apply]
  refine Finset.sum_congr rfl fun d _ => ?_
  rw [val_main_v9_apply, show lidx_main_v10 (ix2 i k) d = ix2 i d from idx2_eq _ _ _ rfl rfl,
    show idx_main_v9 (ridx_main_v10 (ix2 i k) d) = ix2 k d from idx2_eq _ _ _ rfl rfl]
  rfl

theorem v16_at (i k : Fin 4096) : val_main_v16 (F := Ideal) X Y (ix2 i k) = dist (mat X) (mat Y) i k := by
  rw [val_main_v16_apply, val_main_v15_apply, val_main_v13_apply, val_main_v12_apply, val_main_v14_apply,
    val_main_v11_apply, v8_at, v10_at]
  rfl

theorem v18_at (i : Fin 4096) : val_main_v18 (F := Ideal) X (ix1 i) = sqn (mat X) i := by
  rw [val_main_v18_apply]
  show Ideal.ofBits .f32 0x00000000#32 + _ = _
  rw [Ideal.ofBits_zero_f32, zero_add]
  refine Finset.sum_congr rfl fun k _ => ?_
  rw [val_main_v17_apply, show idx_main_v18 (ix1 i) k = ix2 i k from idx2_eq _ _ _ rfl rfl]
  rfl

theorem v21_at (i : Fin 4096) : val_main_v21 (F := Ideal) X (ix1 i) = sqn (mat X) i := by
  rw [val_main_v21_apply]
  show Ideal.ofBits .f32 0x00000000#32 + _ = _
  rw [Ideal.ofBits_zero_f32, zero_add]
  refine Finset.sum_congr rfl fun k _ => ?_
  rw [val_main_v20_apply, show idx_main_v21 (ix1 i) k = ix2 i k from idx2_eq _ _ _ rfl rfl]
  rfl

theorem v25_at (i k : Fin 4096) :
    val_main_v25 (F := Ideal) X (ix2 i k) = sqn (mat X) i + sqn (mat X) k := by
  rw [val_main_v25_apply, val_main_v23_apply, val_main_v19_apply, val_main_v24_apply, val_main_v22_apply,
    show idx_main_v19 (idx_main_v23 (ix2 i k)) = ix1 i from idx1_eq _ _ rfl,
    show idx_main_v22 (idx_main_v24 (ix2 i k)) = ix1 k from idx1_eq _ _ rfl, v18_at, v21_at]
  rfl

theorem v27_at (i k : Fin 4096) : val_main_v27 (F := Ideal) X (ix2 i k) = ip (mat X) (mat X) i k := by
  rw [val_main_v27_apply]
  refine Finset.sum_congr rfl fun d _ => ?_
  rw [val_main_v26_apply, show lidx_main_v27 (ix2 i k) d = ix2 i d from idx2_eq _ _ _ rfl rfl,
    show idx_main_v26 (ridx_main_v27 (ix2 i k) d) = ix2 k d from idx2_eq _ _ _ rfl rfl]
  rfl

theorem v33_at (i k : Fin 4096) : val_main_v33 (F := Ideal) X (ix2 i k) = dist (mat X) (mat X) i k := by
  rw [val_main_v33_apply, val_main_v32_apply, val_main_v30_apply, val_main_v29_apply, val_main_v31_apply,
    val_main_v28_apply, v25_at, v27_at]
  rfl

theorem v39_at (i k : Fin 4096) : val_main_v39 (F := Ideal) (ix2 i k) = diag i k := by
  rw [val_main_v39_apply, val_main_v38_apply, val_main_v37_apply, val_main_v34_apply, val_main_v35_apply,
    val_main_v36_apply, val_main_c_apply]
  show (((IntOp.cmpi .eq (BitVec.ofNat 32 i.val + 0#32) (BitVec.ofNat 32 k.val)).toNat : ℝ) : EReal) = _
  rw [BitVec.add_zero]
  unfold diag IntOp.cmpi
  by_cases h : i = k
  · subst h
    rw [if_pos rfl, beq_self_eq_true]
    show (((1 : ℕ) : ℝ) : EReal) = 1
    rw [Nat.cast_one, EReal.coe_one]
  · have hne : (BitVec.ofNat 32 i.val == BitVec.ofNat 32 k.val) = false := by
      rw [beq_eq_false_iff_ne]
      intro e
      apply h
      have e' := congrArg BitVec.toNat e
      rw [BitVec.toNat_ofNat, BitVec.toNat_ofNat] at e'
      have hi := i.isLt; have hk := k.isLt
      exact Fin.ext (by omega)
    rw [if_neg h, hne]
    show (((0 : ℕ) : ℝ) : EReal) = 0
    rw [Nat.cast_zero, EReal.coe_zero]

theorem v42_at (i k : Fin 4096) :
    val_main_v42 (F := Ideal) X (ix2 i k) = dist (mat X) (mat X) i k + cMask * diag i k := by
  rw [val_main_v42_apply, val_main_v41_apply, val_main_v40_apply, v33_at, v39_at]
  rfl

theorem v43_left (i : Fin 4096) (c : Fin 8192) (hc : c.val < 4096) :
    val_main_v43 (F := Ideal) X Y (ix2 i c) = val_main_v16 (F := Ideal) X Y (ix2 i ⟨c.val, hc⟩) := by
  unfold val_main_v43
  generalize val_main_v16 (F := Ideal) X Y = a
  generalize val_main_v42 (F := Ideal) X = b
  exact concatenate_pair_apply_left 1 a b _ (ix2 i c) rfl (ix2 i ⟨c.val, hc⟩)
    (fun d => by match d with | ⟨0, _⟩ => rfl | ⟨1, _⟩ => rfl)

theorem v43_right (i : Fin 4096) (c : Fin 8192) (hc : 4096 ≤ c.val) :
    val_main_v43 (F := Ideal) X Y (ix2 i c)
      = val_main_v42 (F := Ideal) X (ix2 i ⟨c.val - 4096, by have := c.isLt; omega⟩) := by
  unfold val_main_v43
  generalize val_main_v16 (F := Ideal) X Y = a
  generalize val_main_v42 (F := Ideal) X = b
  exact concatenate_pair_apply_right 1 a b _ (ix2 i c) rfl rfl (ix2 i ⟨c.val - 4096, by have := c.isLt; omega⟩)
    (fun d hd => by match d, hd with | ⟨0, _⟩, _ => rfl | ⟨1, _⟩, hd => exact absurd rfl hd)
    (by show c.val - 4096 + 4096 = c.val; omega)

theorem v46_at (i : Fin 4096) (c : Fin 8192) :
    val_main_v46 (F := Ideal) X Y (ix2 i c) = L (mat X) (mat Y) i c := by
  rw [val_main_v46_apply, val_main_v44_apply, val_main_v45_apply]
  unfold L
  by_cases hc : c.val < 4096
  · rw [dif_pos hc, v43_left X Y i c hc, v16_at]; rfl
  · rw [dif_neg hc, v43_right X Y i c (Nat.le_of_not_lt hc), v42_at]; rfl

theorem negInf_eq_bot : Ideal.ofBits .f32 0xFF800000#32 = (⊥ : EReal) := by simp [Ideal.ofBits, Ideal.ieee]

theorem lift_row {n m : Nat} (h : (⟨2, ![n, m]⟩ : Shape).Reduces [1] (⟨1, ![n]⟩ : Shape)) (i : Fin n)
    (k : Fin ((⟨2, ![n, m]⟩ : Shape).size 1)) : h.lift (ix1 i) k = ix2 i (⟨k.val, k.isLt⟩ : Fin m) := by
  funext c; apply Fin.ext
  match c with | ⟨0, _⟩ => rfl | ⟨1, _⟩ => rfl

theorem lift_col {n m : Nat} (h : (⟨2, ![n, m]⟩ : Shape).Reduces [0] (⟨1, ![m]⟩ : Shape)) (c : Fin m)
    (k : Fin ((⟨2, ![n, m]⟩ : Shape).size 0)) : h.lift (ix1 c) k = ix2 (⟨k.val, k.isLt⟩ : Fin n) c := by
  funext d; apply Fin.ext
  match d with | ⟨0, _⟩ => rfl | ⟨1, _⟩ => rfl

theorem rowMax_at (a : (⟨2, ![4096, 8192]⟩ : Shape).Idx → EReal) (init : (⟨0, ![]⟩ : Shape).Idx → EReal)
    (h' : (⟨2, ![4096, 8192]⟩ : Shape).ReducesTo [1] (⟨1, ![4096]⟩ : Shape)) (hu : 0 < (⟨0, ![]⟩ : Shape).numel)
    (hinit : init (Shape.Idx.first hu) = ⊥) (i : Fin 4096) :
    Host.reduce (FloatOps.maximumf (F := Ideal) (φ := .f32)) a init h' hu (ix1 i)
      = supF fun c : Fin 8192 => a (ix2 i c) := by
  have h : (⟨2, ![4096, 8192]⟩ : Shape).Reduces [1] (⟨1, ![4096]⟩ : Shape) := by decide
  rw [Host.reduce_eq_fold_single (FloatOps.maximumf (F := Ideal) (φ := .f32)) a init h' h hu, hinit]
  have hf : (a ∘ h.lift (ix1 i)) = fun c : Fin 8192 => a (ix2 i c) :=
    funext fun c => congrArg a (lift_row h i c)
  rw [hf]
  rfl

theorem colMax_at (a : (⟨2, ![4096, 8192]⟩ : Shape).Idx → EReal) (init : (⟨0, ![]⟩ : Shape).Idx → EReal)
    (h' : (⟨2, ![4096, 8192]⟩ : Shape).ReducesTo [0] (⟨1, ![8192]⟩ : Shape)) (hu : 0 < (⟨0, ![]⟩ : Shape).numel)
    (hinit : init (Shape.Idx.first hu) = ⊥) (c : Fin 8192) :
    Host.reduce (FloatOps.maximumf (F := Ideal) (φ := .f32)) a init h' hu (ix1 c)
      = supF fun i : Fin 4096 => a (ix2 i c) := by
  have h : (⟨2, ![4096, 8192]⟩ : Shape).Reduces [0] (⟨1, ![8192]⟩ : Shape) := by decide
  rw [Host.reduce_eq_fold_single (FloatOps.maximumf (F := Ideal) (φ := .f32)) a init h' h hu, hinit]
  have hf : (a ∘ h.lift (ix1 c)) = fun i : Fin 4096 => a (ix2 i c) :=
    funext fun i => congrArg a (lift_col h c i)
  rw [hf]
  rfl

theorem v49_at (i : Fin 4096) : val_main_v49 (F := Ideal) X Y (ix1 i) = rmaxR (mat X) (mat Y) i := by
  rw [val_main_v49_apply, val_main_v48_apply, val_main_cst_10_apply]
  unfold val_main_v47
  rw [rowMax_at _ _ _ _ (by rw [val_main_cst_9_apply]; exact negInf_eq_bot) i]
  show max (Ideal.ofBits .f32 0xFF800000#32) _ = _
  rw [negInf_eq_bot, max_eq_right bot_le]
  unfold rmaxR
  exact congrArg supF (funext fun c => v46_at X Y i c)

theorem v60_at (c : Fin 8192) : val_main_v60 (F := Ideal) X Y (ix1 c) = cmaxR (mat X) (mat Y) c := by
  rw [val_main_v60_apply, val_main_v59_apply, val_main_cst_13_apply]
  unfold val_main_v58
  rw [colMax_at _ _ _ _ (by rw [val_main_cst_12_apply]; exact negInf_eq_bot) c]
  show max (Ideal.ofBits .f32 0xFF800000#32) _ = _
  rw [negInf_eq_bot, max_eq_right bot_le]
  unfold cmaxR
  exact congrArg supF (funext fun i => v46_at X Y i c)

theorem v53_at (i : Fin 4096) (c : Fin 8192) :
    val_main_v53 (F := Ideal) X Y (ix2 i c) = Ideal.exp (L (mat X) (mat Y) i c - rmaxR (mat X) (mat Y) i) := by
  rw [val_main_v53_apply, val_main_v52_apply, val_main_v51_apply, val_main_v50_apply,
    show idx_main_v50 (idx_main_v51 (ix2 i c)) = ix1 i from idx1_eq _ _ rfl, v46_at, v49_at]
  rfl

theorem v54_at (i : Fin 4096) : val_main_v54 (F := Ideal) X Y (ix1 i) = rsumR (mat X) (mat Y) i := by
  rw [val_main_v54_apply]
  show Ideal.ofBits .f32 0x00000000#32 + _ = _
  rw [Ideal.ofBits_zero_f32, zero_add]
  unfold rsumR
  refine Finset.sum_congr rfl fun c _ => ?_
  rw [show idx_main_v54 (ix1 i) c = ix2 i c from idx2_eq _ _ _ rfl rfl, v53_at]

theorem v57_at (i : Fin 4096) (c : Fin 8192) :
    val_main_v57 (F := Ideal) X Y (ix2 i c)
      = Ideal.div (Ideal.exp (L (mat X) (mat Y) i c - rmaxR (mat X) (mat Y) i)) (rsumR (mat X) (mat Y) i) := by
  rw [val_main_v57_apply, val_main_v56_apply, val_main_v55_apply,
    show idx_main_v55 (idx_main_v56 (ix2 i c)) = ix1 i from idx1_eq _ _ rfl, v53_at, v54_at]
  rfl

theorem v64_at (i : Fin 4096) (c : Fin 8192) :
    val_main_v64 (F := Ideal) X Y (ix2 i c) = Ideal.exp (L (mat X) (mat Y) i c - cmaxR (mat X) (mat Y) c) := by
  rw [val_main_v64_apply, val_main_v63_apply, val_main_v62_apply, val_main_v61_apply,
    show idx_main_v61 (idx_main_v62 (ix2 i c)) = ix1 c from idx1_eq _ _ rfl, v46_at, v60_at]
  rfl

theorem v65_at (c : Fin 8192) : val_main_v65 (F := Ideal) X Y (ix1 c) = csumR (mat X) (mat Y) c := by
  rw [val_main_v65_apply]
  show Ideal.ofBits .f32 0x00000000#32 + _ = _
  rw [Ideal.ofBits_zero_f32, zero_add]
  unfold csumR
  refine Finset.sum_congr rfl fun i _ => ?_
  rw [show idx_main_v65 (ix1 c) i = ix2 i c from idx2_eq _ _ _ rfl rfl, v64_at]

theorem v68_at (i : Fin 4096) (c : Fin 8192) :
    val_main_v68 (F := Ideal) X Y (ix2 i c)
      = Ideal.div (Ideal.exp (L (mat X) (mat Y) i c - cmaxR (mat X) (mat Y) c)) (csumR (mat X) (mat Y) c) := by
  rw [val_main_v68_apply, val_main_v67_apply, val_main_v66_apply,
    show idx_main_v66 (idx_main_v67 (ix2 i c)) = ix1 c from idx1_eq _ _ rfl, v64_at, v65_at]
  rfl

theorem v70_at (i : Fin 4096) (c : Fin 8192) :
    val_main_v70 (F := Ideal) X Y (ix2 i c) = AR (mat X) (mat Y) i c := by
  rw [val_main_v70_apply, val_main_v69_apply, v57_at, v68_at]
  rfl

theorem v73_at (i : Fin 4096) (d : Fin 512) :
    val_main_v73 (F := Ideal) X Y (ix2 i d) = ∑ k : Fin 4096, AR (mat X) (mat Y) i (posCol k) * mat Y k d := by
  rw [val_main_v73_apply]
  refine Finset.sum_congr rfl fun k _ => ?_
  rw [val_main_v71_apply,
    show idx_main_v71 (lidx_main_v73 (ix2 i d) k) = ix2 i (posCol k) from idx2_eq _ _ _ rfl rfl,
    show ridx_main_v73 (ix2 i d) k = ix2 k d from idx2_eq _ _ _ rfl rfl, v70_at]
  rfl

theorem v74_at (i : Fin 4096) (d : Fin 512) :
    val_main_v74 (F := Ideal) X Y (ix2 i d) = ∑ k : Fin 4096, AR (mat X) (mat Y) i (negCol k) * mat X k d := by
  rw [val_main_v74_apply]
  refine Finset.sum_congr rfl fun k _ => ?_
  rw [val_main_v72_apply,
    show idx_main_v72 (lidx_main_v74 (ix2 i d) k) = ix2 i (negCol k) from idx2_eq _ _ _ rfl (Nat.add_comm _ _),
    show ridx_main_v74 (ix2 i d) k = ix2 k d from idx2_eq _ _ _ rfl rfl, v70_at]
  rfl

end Stages

theorem ref_apply (X Y : (⟨2, ![4096, 512]⟩ : Shape).Idx → EReal) (i : Fin 4096) (d : Fin 512) :
    val_main_v75 (F := Ideal) X Y (ix2 i d) = outR (mat X) (mat Y) i d := by
  rw [val_main_v75_apply, v73_at, v74_at]
  rfl

end Cert.RefValue

end
-- ==== Proof.lean ====
import proofs.«425014_j10050223472719_3_alg».proof.Defs
import proofs.«425014_j10050223472719_3_alg».proof.Proof.Gen.Kernel
import proofs.«425014_j10050223472719_3_alg».proof.Proof.Gen.KernelIdeal
import proofs.«425014_j10050223472719_3_alg».proof.Proof.Gen.ReferenceIdeal
import proofs.«425014_j10050223472719_3_alg».proof.Proof.Gen.Pre_finite_inputs
import proofs.«425014_j10050223472719_3_alg».proof.Proof.SameProgram
import proofs.«425014_j10050223472719_3_alg».proof.Proof.Assemble
import proofs.«425014_j10050223472719_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Val.Gout m c, Cert.KernelIdeal.Val.kernel_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2]
  funext j
  rw [eq_ix2 j]
  exact Cert.RefValue.ref_apply _ _ (j 0) (j 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
